-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000x1 : Shape := ⟨2, ![1600000, 1]⟩
abbrev S100x4 : Shape := ⟨2, ![100, 4]⟩
abbrev S10000x16 : Shape := ⟨2, ![10000, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S4x16 : Shape := ⟨2, ![4, 16]⟩
abbrev S16 : Shape := ⟨1, ![16]⟩
abbrev S272x128 : Shape := ⟨2, ![272, 128]⟩
abbrev S128x64 : Shape := ⟨2, ![128, 64]⟩
abbrev S64x3 : Shape := ⟨2, ![64, 3]⟩
abbrev S3 : Shape := ⟨1, ![3]⟩
abbrev S_ : Shape := ⟨0, ![]⟩

class Facts : Prop where
  bcast_S_S1600000x1 : S_.BroadcastsInDim S1600000x1 (![] : Fin 0 → Fin S1600000x1.rank)
  reducesTo_S1600000x1_S_d0_1 : S1600000x1.ReducesTo [0, 1] S_
  h_S_ : 0 < S_.numel
  bcast_S_S100x4 : S_.BroadcastsInDim S100x4 (![] : Fin 0 → Fin S100x4.rank)
  reducesTo_S100x4_S_d0_1 : S100x4.ReducesTo [0, 1] S_
  bcast_S_S10000x16 : S_.BroadcastsInDim S10000x16 (![] : Fin 0 → Fin S10000x16.rank)
  reducesTo_S10000x16_S_d0_1 : S10000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S272x128 : S_.BroadcastsInDim S272x128 (![] : Fin 0 → Fin S272x128.rank)
  reducesTo_S272x128_S_d0_1 : S272x128.ReducesTo [0, 1] S_
  bcast_S_S128x64 : S_.BroadcastsInDim S128x64 (![] : Fin 0 → Fin S128x64.rank)
  reducesTo_S128x64_S_d0_1 : S128x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S100000 : S_.BroadcastsInDim S100000 (![] : Fin 0 → Fin S100000.rank)
  reducesTo_S100000_S_d0 : S100000.ReducesTo [0] S_

variable [Facts]

def fn_part9 {F : FTy → Type} [FloatOps F] (main_arg3 : IVec S100000 32) (main_v152 : IVec S_ 1) (main_c_60 : IVec S_ 32) : IVec S_ 1 :=
  let main_v153 : IVec S100000 32 := broadcastInDim S100000 ![] bcast_S_S100000 main_c_60
  let main_v154 : IVec S100000 1 := cmpi .slt main_arg3 main_v153
  let main_c_61 : IVec S_ 1 := constantI S_ 1 1#1
  let main_v155 : IVec S_ 1 := (fun x v => Host.reduce IntOp.andi x v reducesTo_S100000_S_d0 h_S_) main_v154 main_c_61
  let main_v156 : IVec S_ 1 := andi main_v152 main_v155
  main_v156

def fn_part8 {F : FTy → Type} [FloatOps F] (main_arg3 : IVec S100000 32) (main_arg31 : FVec F S64x3 .f32) (main_arg32 : FVec F S3 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x3 .f32 := Host.absf main_arg31
  let main_cst_54 : FVec F S_ .f32 := constant S_ .f32 0x7F800000#32
  let main_v140 : FVec F S64x3 .f32 := broadcastInDim S64x3 ![] bcast_S_S64x3 main_cst_54
  let main_v141 : IVec S64x3 1 := cmpf .olt main_v139 main_v140
  let main_c_55 : IVec S_ 1 := constantI S_ 1 1#1
  let main_v142 : IVec S_ 1 := (fun x v => Host.reduce IntOp.andi x v reducesTo_S64x3_S_d0_1 h_S_) main_v141 main_c_55
  let main_v143 : IVec S_ 1 := andi main_v138 main_v142
  let main_v144 : FVec F S3 .f32 := Host.absf main_arg32
  let main_cst_56 : FVec F S_ .f32 := constant S_ .f32 0x7F800000#32
  let main_v145 : FVec F S3 .f32 := broadcastInDim S3 ![] bcast_S_S3 main_cst_56
  let main_v146 : IVec S3 1 := cmpf .olt main_v144 main_v145
  let main_c_57 : IVec S_ 1 := constantI S_ 1 1#1
  let main_v147 : IVec S_ 1 := (fun x v => Host.reduce IntOp.andi x v reducesTo_S3_S_d0 h_S_) main_v146 main_c_57
  let main_v148 : IVec S_ 1 := andi main_v143 main_v147
  let main_c_58 : IVec S_ 32 := constantI S_ 32 0#32
  let main_v149 : IVec S100000 32 := broadcastInDim S100000 ![] bcast_S_S100000 main_c_58
  let main_v150 : IVec S100000 1 := cmpi .sge main_arg3 main_v149
  let main_c_59 : IVec S_ 1 := constantI S_ 1 1#1
  let main_v151 : IVec S_ 1 := (fun x v => Host.reduce IntOp.andi x v reducesTo_S100000_S_d0 h_S_) main_v150 main_c_59
  let main_v152 : IVec S_ 1 := andi main_v148 main_v151
  let main_c_60 : IVec S_ 32 := constantI S_ 32 100#32
  fn_part9 (F := F) main_arg3 main_v152 main_c_60

def fn_part7 {F : FTy → Type} [FloatOps F] (main_arg3 : IVec S100000 32) (main_arg28 : FVec F S64 .f32) (main_arg29 : FVec F S64 .f32) (main_arg30 : FVec F S64 .f32) (main_arg31 : FVec F S64x3 .f32) (main_arg32 : FVec F S3 .f32) (main_v118 : IVec S_ 1) (main_v119 : FVec F S128x64 .f32) : IVec S_ 1 :=
  let main_cst_46 : FVec F S_ .f32 := constant S_ .f32 0x7F800000#32
  let main_v120 : FVec F S128x64 .f32 := broadcastInDim S128x64 ![] bcast_S_S128x64 main_cst_46
  let main_v121 : IVec S128x64 1 := cmpf .olt main_v119 main_v120
  let main_c_47 : IVec S_ 1 := constantI S_ 1 1#1
  let main_v122 : IVec S_ 1 := (fun x v => Host.reduce IntOp.andi x v reducesTo_S128x64_S_d0_1 h_S_) main_v121 main_c_47
  let main_v123 : IVec S_ 1 := andi main_v118 main_v122
  let main_v124 : FVec F S64 .f32 := Host.absf main_arg28
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg29
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg30
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg3 main_arg31 main_arg32 main_v133 main_v136

def fn_part6 {F : FTy → Type} [FloatOps F] (main_arg3 : IVec S100000 32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64x3 .f32) (main_arg32 : FVec F S3 .f32) (main_v98 : IVec S_ 1) (main_v101 : IVec S272x128 1) (main_c_39 : IVec S_ 1) : IVec S_ 1 :=
  let main_v102 : IVec S_ 1 := (fun x v => Host.reduce IntOp.andi x v reducesTo_S272x128_S_d0_1 h_S_) main_v101 main_c_39
  let main_v103 : IVec S_ 1 := andi main_v98 main_v102
  let main_v104 : FVec F S128 .f32 := Host.absf main_arg24
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg26
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x64 .f32 := Host.absf main_arg27
  fn_part7 (F := F) main_arg3 main_arg28 main_arg29 main_arg30 main_arg31 main_arg32 main_v118 main_v119

def fn_part5 {F : FTy → Type} [FloatOps F] (main_arg3 : IVec S100000 32) (main_arg21 : FVec F S4x16 .f32) (main_arg22 : FVec F S16 .f32) (main_arg23 : FVec F S272x128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64x3 .f32) (main_arg32 : FVec F S3 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S4x16 .f32 := Host.absf main_arg21
  let main_cst_34 : FVec F S_ .f32 := constant S_ .f32 0x7F800000#32
  let main_v90 : FVec F S4x16 .f32 := broadcastInDim S4x16 ![] bcast_S_S4x16 main_cst_34
  let main_v91 : IVec S4x16 1 := cmpf .olt main_v89 main_v90
  let main_c_35 : IVec S_ 1 := constantI S_ 1 1#1
  let main_v92 : IVec S_ 1 := (fun x v => Host.reduce IntOp.andi x v reducesTo_S4x16_S_d0_1 h_S_) main_v91 main_c_35
  let main_v93 : IVec S_ 1 := andi main_v88 main_v92
  let main_v94 : FVec F S16 .f32 := Host.absf main_arg22
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S272x128 .f32 := Host.absf main_arg23
  let main_cst_38 : FVec F S_ .f32 := constant S_ .f32 0x7F800000#32
  let main_v100 : FVec F S272x128 .f32 := broadcastInDim S272x128 ![] bcast_S_S272x128 main_cst_38
  let main_v101 : IVec S272x128 1 := cmpf .olt main_v99 main_v100
  let main_c_39 : IVec S_ 1 := constantI S_ 1 1#1
  fn_part6 (F := F) main_arg3 main_arg24 main_arg25 main_arg26 main_arg27 main_arg28 main_arg29 main_arg30 main_arg31 main_arg32 main_v98 main_v101 main_c_39

def fn_part4 {F : FTy → Type} [FloatOps F] (main_arg3 : IVec S100000 32) (main_arg17 : FVec F S64 .f32) (main_arg18 : FVec F S128 .f32) (main_arg19 : FVec F S128 .f32) (main_arg20 : FVec F S128 .f32) (main_arg21 : FVec F S4x16 .f32) (main_arg22 : FVec F S16 .f32) (main_arg23 : FVec F S272x128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64x3 .f32) (main_arg32 : FVec F S3 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg3 main_arg21 main_arg22 main_arg23 main_arg24 main_arg25 main_arg26 main_arg27 main_arg28 main_arg29 main_arg30 main_arg31 main_arg32 main_v83 main_v84 main_cst_32

def fn_part3 {F : FTy → Type} [FloatOps F] (main_arg3 : IVec S100000 32) (main_arg14 : FVec F S128x256 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S4x16 .f32) (main_arg22 : FVec F S16 .f32) (main_arg23 : FVec F S272x128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64x3 .f32) (main_arg32 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S128x256 .f32 := Host.absf main_arg14
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg3 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg3 : IVec S100000 32) (main_arg10 : FVec F S128 .f32) (main_arg11 : FVec F S64x128 .f32) (main_arg12 : FVec F S128x256 .f32) (main_arg13 : FVec F S256 .f32) (main_arg14 : FVec F S128x256 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S4x16 .f32) (main_arg22 : FVec F S16 .f32) (main_arg23 : FVec F S272x128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64x3 .f32) (main_arg32 : FVec F S3 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg11
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128x256 .f32 := Host.absf main_arg12
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg3 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg3 : IVec S100000 32) (main_arg7 : FVec F S64 .f32) (main_arg8 : FVec F S16x64 .f32) (main_arg9 : FVec F S64x128 .f32) (main_arg10 : FVec F S128 .f32) (main_arg11 : FVec F S64x128 .f32) (main_arg12 : FVec F S128x256 .f32) (main_arg13 : FVec F S256 .f32) (main_arg14 : FVec F S128x256 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S4x16 .f32) (main_arg22 : FVec F S16 .f32) (main_arg23 : FVec F S272x128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64x3 .f32) (main_arg32 : FVec F S3 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16x64 .f32 := Host.absf main_arg8
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64x128 .f32 := Host.absf main_arg9
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg3 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : IVec S100000 32) (main_arg1 : IVec S2x1600000 32) (main_arg2 : FVec F S1600000x1 .f32) (main_arg3 : IVec S100000 32) (main_arg4 : FVec F S100x4 .f32) (main_arg5 : FVec F S10000x16 .f32) (main_arg6 : FVec F S16x64 .f32) (main_arg7 : FVec F S64 .f32) (main_arg8 : FVec F S16x64 .f32) (main_arg9 : FVec F S64x128 .f32) (main_arg10 : FVec F S128 .f32) (main_arg11 : FVec F S64x128 .f32) (main_arg12 : FVec F S128x256 .f32) (main_arg13 : FVec F S256 .f32) (main_arg14 : FVec F S128x256 .f32) (main_arg15 : FVec F S64 .f32) (main_arg16 : FVec F S64 .f32) (main_arg17 : FVec F S64 .f32) (main_arg18 : FVec F S128 .f32) (main_arg19 : FVec F S128 .f32) (main_arg20 : FVec F S128 .f32) (main_arg21 : FVec F S4x16 .f32) (main_arg22 : FVec F S16 .f32) (main_arg23 : FVec F S272x128 .f32) (main_arg24 : FVec F S128 .f32) (main_arg25 : FVec F S128 .f32) (main_arg26 : FVec F S128 .f32) (main_arg27 : FVec F S128x64 .f32) (main_arg28 : FVec F S64 .f32) (main_arg29 : FVec F S64 .f32) (main_arg30 : FVec F S64 .f32) (main_arg31 : FVec F S64x3 .f32) (main_arg32 : FVec F S3 .f32) : IVec S_ 1 :=
  let main_v0 : FVec F S1600000x1 .f32 := Host.absf main_arg2
  let main_cst : FVec F S_ .f32 := constant S_ .f32 0x7F800000#32
  let main_v1 : FVec F S1600000x1 .f32 := broadcastInDim S1600000x1 ![] bcast_S_S1600000x1 main_cst
  let main_v2 : IVec S1600000x1 1 := cmpf .olt main_v0 main_v1
  let main_c : IVec S_ 1 := constantI S_ 1 1#1
  let main_v3 : IVec S_ 1 := (fun x v => Host.reduce IntOp.andi x v reducesTo_S1600000x1_S_d0_1 h_S_) main_v2 main_c
  let main_v4 : FVec F S100x4 .f32 := Host.absf main_arg4
  let main_cst_0 : FVec F S_ .f32 := constant S_ .f32 0x7F800000#32
  let main_v5 : FVec F S100x4 .f32 := broadcastInDim S100x4 ![] bcast_S_S100x4 main_cst_0
  let main_v6 : IVec S100x4 1 := cmpf .olt main_v4 main_v5
  let main_c_1 : IVec S_ 1 := constantI S_ 1 1#1
  let main_v7 : IVec S_ 1 := (fun x v => Host.reduce IntOp.andi x v reducesTo_S100x4_S_d0_1 h_S_) main_v6 main_c_1
  let main_v8 : IVec S_ 1 := andi main_v3 main_v7
  let main_v9 : FVec F S10000x16 .f32 := Host.absf main_arg5
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S16x64 .f32 := Host.absf main_arg6
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg3 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S100000 : Shape := ⟨1, ![100000]⟩
abbrev S2x1600000 : Shape := ⟨2, ![2, 1600000]⟩
abbrev S1600000x1 : Shape := ⟨2, ![1600000, 1]⟩
abbrev S100x4 : Shape := ⟨2, ![100, 4]⟩
abbrev S10000x16 : Shape := ⟨2, ![10000, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S4x16 : Shape := ⟨2, ![4, 16]⟩
abbrev S16 : Shape := ⟨1, ![16]⟩
abbrev S272x128 : Shape := ⟨2, ![272, 128]⟩
abbrev S128x64 : Shape := ⟨2, ![128, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x16 : Shape := ⟨2, ![100000, 16]⟩
abbrev S100x1 : Shape := ⟨2, ![100, 1]⟩
abbrev S1600000x16 : Shape := ⟨2, ![1600000, 16]⟩
abbrev S1x64 : Shape := ⟨2, ![1, 64]⟩
abbrev S100000x64 : Shape := ⟨2, ![100000, 64]⟩
abbrev S5000x16 : Shape := ⟨2, ![5000, 16]⟩
abbrev S5000x64 : Shape := ⟨2, ![5000, 64]⟩
abbrev S100x64 : Shape := ⟨2, ![100, 64]⟩
abbrev S5000x1 : Shape := ⟨2, ![5000, 1]⟩
abbrev S5000x100 : Shape := ⟨2, ![5000, 100]⟩
abbrev S1600000x64 : Shape := ⟨2, ![1600000, 64]⟩
abbrev S1x128 : Shape := ⟨2, ![1, 128]⟩
abbrev S100000x128 : Shape := ⟨2, ![100000, 128]⟩
abbrev S5000x128 : Shape := ⟨2, ![5000, 128]⟩
abbrev S100x128 : Shape := ⟨2, ![100, 128]⟩
abbrev S1600000x128 : Shape := ⟨2, ![1600000, 128]⟩
abbrev S1x256 : Shape := ⟨2, ![1, 256]⟩
abbrev S100000x256 : Shape := ⟨2, ![100000, 256]⟩
abbrev S5000x256 : Shape := ⟨2, ![5000, 256]⟩
abbrev S100x256 : Shape := ⟨2, ![100, 256]⟩
abbrev S100x16 : Shape := ⟨2, ![100, 16]⟩
abbrev S1x16 : Shape := ⟨2, ![1, 16]⟩
abbrev S100x272 : Shape := ⟨2, ![100, 272]⟩
abbrev S100x3 : Shape := ⟨2, ![100, 3]⟩
abbrev S1x3 : Shape := ⟨2, ![1, 3]⟩

abbrev nBuf : Space → Nat
  | .hbm => 309
  | .vmem => 49
  | .smem => 0
  | _ => 0

abbrev hbmTy0_0 (i : Nat) : BufTy := match i % 128 with
  | 0 => ⟨S100000, .i32⟩
  | 1 => ⟨S2x1600000, .i32⟩
  | 2 => ⟨S1600000x1, .f32⟩
  | 3 => ⟨S100000, .i32⟩
  | 4 => ⟨S100x4, .f32⟩
  | 5 => ⟨S10000x16, .f32⟩
  | 6 => ⟨S16x64, .f32⟩
  | 7 => ⟨S64, .f32⟩
  | 8 => ⟨S16x64, .f32⟩
  | 9 => ⟨S64x128, .f32⟩
  | 10 => ⟨S128, .f32⟩
  | 11 => ⟨S64x128, .f32⟩
  | 12 => ⟨S128x256, .f32⟩
  | 13 => ⟨S256, .f32⟩
  | 14 => ⟨S128x256, .f32⟩
  | 15 => ⟨S64, .f32⟩
  | 16 => ⟨S64, .f32⟩
  | 17 => ⟨S64, .f32⟩
  | 18 => ⟨S128, .f32⟩
  | 19 => ⟨S128, .f32⟩
  | 20 => ⟨S128, .f32⟩
  | 21 => ⟨S4x16, .f32⟩
  | 22 => ⟨S16, .f32⟩
  | 23 => ⟨S272x128, .f32⟩
  | 24 => ⟨S128, .f32⟩
  | 25 => ⟨S128, .f32⟩
  | 26 => ⟨S128, .f32⟩
  | 27 => ⟨S128x64, .f32⟩
  | 28 => ⟨S64, .f32⟩
  | 29 => ⟨S64, .f32⟩
  | 30 => ⟨S64, .f32⟩
  | 31 => ⟨S64x3, .f32⟩
  | 32 => ⟨S3, .f32⟩
  | 33 => ⟨S1x1600000, .i32⟩
  | 34 => ⟨S1600000, .i32⟩
  | 35 => ⟨S1x1600000, .i32⟩
  | 36 => ⟨S1600000, .i32⟩
  | 37 => ⟨S1600000, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x16, .f32⟩
  | 47 => ⟨S_, .f32⟩
  | 48 => ⟨S100000x1, .f32⟩
  | 49 => ⟨S_, .f32⟩
  | 50 => ⟨S100x1, .f32⟩
  | 51 => ⟨S100000x1, .i32⟩
  | 52 => ⟨S100x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x16, .f32⟩
  | 62 => ⟨S1600000x1, .f32⟩
  | 63 => ⟨S1600000x16, .f32⟩
  | 64 => ⟨S1600000x16, .f32⟩
  | 65 => ⟨S_, .f32⟩
  | 66 => ⟨S100000x16, .f32⟩
  | 67 => ⟨S1600000x1, .i32⟩
  | 68 => ⟨S100000x16, .f32⟩
  | 69 => ⟨S1x64, .f32⟩
  | 70 => ⟨S100000x64, .f32⟩
  | 71 => ⟨S_, .f32⟩
  | 72 => ⟨S100x64, .f32⟩
  | 73 => ⟨S100000x1, .i32⟩
  | 74 => ⟨S100x64, .f32⟩
  | 75 => ⟨S_, .f32⟩
  | 76 => ⟨S100x1, .f32⟩
  | 77 => ⟨S100x1, .f32⟩
  | 78 => ⟨S100x64, .f32⟩
  | 79 => ⟨S100x64, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x64, .f32⟩
  | 89 => ⟨S1x64, .f32⟩
  | 90 => ⟨S100000x64, .f32⟩
  | 91 => ⟨S100000x64, .f32⟩
  | 92 => ⟨S100000x64, .f32⟩
  | 93 => ⟨S100000x64, .f32⟩
  | 94 => ⟨S_, .f32⟩
  | 95 => ⟨S100x64, .f32⟩
  | 96 => ⟨S100000x1, .i32⟩
  | 97 => ⟨S100x64, .f32⟩
  | 98 => ⟨S_, .f32⟩
  | 99 => ⟨S100x1, .f32⟩
  | 100 => ⟨S100x1, .f32⟩
  | 101 => ⟨S100x64, .f32⟩
  | 102 => ⟨S100x64, .f32⟩
  | 103 => ⟨S100000x1, .i32⟩
  | 104 => ⟨S1x64, .f32⟩
  | 105 => ⟨S1x64, .f32⟩
  | 106 => ⟨S1x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S1600000x1, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S1x128, .f32⟩
  | 125 => ⟨S100000x128, .f32⟩
  | 126 => ⟨S_, .f32⟩
  | 127 => ⟨S100x128, .f32⟩
  | _ => ⟨S100000, .i32⟩

abbrev hbmTy0_1 (i : Nat) : BufTy := match i % 128 with
  | 0 => ⟨S100000x1, .i32⟩
  | 1 => ⟨S100x128, .f32⟩
  | 2 => ⟨S_, .f32⟩
  | 3 => ⟨S100x1, .f32⟩
  | 4 => ⟨S100x1, .f32⟩
  | 5 => ⟨S100x128, .f32⟩
  | 6 => ⟨S100x128, .f32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S100000x128, .f32⟩
  | 21 => ⟨S_, .f32⟩
  | 22 => ⟨S100x128, .f32⟩
  | 23 => ⟨S100000x1, .i32⟩
  | 24 => ⟨S100x128, .f32⟩
  | 25 => ⟨S_, .f32⟩
  | 26 => ⟨S100x1, .f32⟩
  | 27 => ⟨S100x1, .f32⟩
  | 28 => ⟨S100x128, .f32⟩
  | 29 => ⟨S100x128, .f32⟩
  | 30 => ⟨S100000x1, .i32⟩
  | 31 => ⟨S1x128, .f32⟩
  | 32 => ⟨S1x128, .f32⟩
  | 33 => ⟨S1x128, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S1600000x1, .f32⟩
  | 45 => ⟨S1600000x128, .f32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S1x256, .f32⟩
  | 52 => ⟨S100000x256, .f32⟩
  | 53 => ⟨S_, .f32⟩
  | 54 => ⟨S100x256, .f32⟩
  | 55 => ⟨S100000x1, .i32⟩
  | 56 => ⟨S100x256, .f32⟩
  | 57 => ⟨S_, .f32⟩
  | 58 => ⟨S100x1, .f32⟩
  | 59 => ⟨S100x1, .f32⟩
  | 60 => ⟨S100x256, .f32⟩
  | 61 => ⟨S100x256, .f32⟩
  | 62 => ⟨S100x16, .f32⟩
  | 63 => ⟨S1x16, .f32⟩
  | 64 => ⟨S100x16, .f32⟩
  | 65 => ⟨S100x16, .f32⟩
  | 66 => ⟨S100x272, .f32⟩
  | 67 => ⟨S100x128, .f32⟩
  | 68 => ⟨S1x128, .f32⟩
  | 69 => ⟨S100x128, .f32⟩
  | 70 => ⟨S100x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100x128, .f32⟩
  | 84 => ⟨S100x128, .f32⟩
  | 85 => ⟨S100x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100x128, .f32⟩
  | 101 => ⟨S100x128, .f32⟩
  | 102 => ⟨S1x128, .f32⟩
  | 103 => ⟨S100x128, .f32⟩
  | 104 => ⟨S100x128, .f32⟩
  | 105 => ⟨S_, .f32⟩
  | 106 => ⟨S128, .f32⟩
  | 107 => ⟨S128, .f32⟩
  | 108 => ⟨S128, .f32⟩
  | 109 => ⟨S1x128, .f32⟩
  | 110 => ⟨S100x128, .f32⟩
  | 111 => ⟨S100x128, .f32⟩
  | 112 => ⟨S1x128, .f32⟩
  | 113 => ⟨S100x128, .f32⟩
  | 114 => ⟨S100x128, .f32⟩
  | 115 => ⟨S_, .f32⟩
  | 116 => ⟨S100x128, .f32⟩
  | 117 => ⟨S100x128, .i1⟩
  | 118 => ⟨S_, .f32⟩
  | 119 => ⟨S100x128, .f32⟩
  | 120 => ⟨S100x128, .f32⟩
  | 121 => ⟨S100x128, .f32⟩
  | 122 => ⟨S100x64, .f32⟩
  | 123 => ⟨S1x64, .f32⟩
  | 124 => ⟨S100x64, .f32⟩
  | 125 => ⟨S100x64, .f32⟩
  | 126 => ⟨S_, .f32⟩
  | 127 => ⟨S64, .f32⟩
  | _ => ⟨S100000, .i32⟩

abbrev hbmTy0_2 (i : Nat) : BufTy := match i % 128 with
  | 0 => ⟨S_, .f32⟩
  | 1 => ⟨S64, .f32⟩
  | 2 => ⟨S64, .f32⟩
  | 3 => ⟨S_, .i32⟩
  | 4 => ⟨S_, .f32⟩
  | 5 => ⟨S64, .f32⟩
  | 6 => ⟨S1x64, .f32⟩
  | 7 => ⟨S_, .f32⟩
  | 8 => ⟨S1x64, .f32⟩
  | 9 => ⟨S1x64, .f32⟩
  | 10 => ⟨S100x64, .f32⟩
  | 11 => ⟨S100x64, .f32⟩
  | 12 => ⟨S100x64, .f32⟩
  | 13 => ⟨S_, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .i1⟩
  | 22 => ⟨S_, .f32⟩
  | 23 => ⟨S_, .f32⟩
  | 24 => ⟨S64, .f32⟩
  | 25 => ⟨S64, .f32⟩
  | 26 => ⟨S1x64, .f32⟩
  | 27 => ⟨S100x64, .f32⟩
  | 28 => ⟨S100x64, .f32⟩
  | 29 => ⟨S1x64, .f32⟩
  | 30 => ⟨S100x64, .f32⟩
  | 31 => ⟨S100x64, .f32⟩
  | 32 => ⟨S_, .f32⟩
  | 33 => ⟨S64, .f32⟩
  | 34 => ⟨S64, .f32⟩
  | 35 => ⟨S64, .f32⟩
  | 36 => ⟨S1x64, .f32⟩
  | 37 => ⟨S100x64, .f32⟩
  | 38 => ⟨S100x64, .f32⟩
  | 39 => ⟨S1x64, .f32⟩
  | 40 => ⟨S100x64, .f32⟩
  | 41 => ⟨S100x64, .f32⟩
  | 42 => ⟨S_, .f32⟩
  | 43 => ⟨S100x64, .f32⟩
  | 44 => ⟨S100x64, .i1⟩
  | 45 => ⟨S_, .f32⟩
  | 46 => ⟨S100x64, .f32⟩
  | 47 => ⟨S100x64, .f32⟩
  | 48 => ⟨S100x64, .f32⟩
  | 49 => ⟨S100x3, .f32⟩
  | 50 => ⟨S1x3, .f32⟩
  | 51 => ⟨S100x3, .f32⟩
  | 52 => ⟨S100x3, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S16x64, .f32⟩
  | .local _ .vmem, ⟨5, _⟩ => ⟨S1x64, .f32⟩
  | .local _ .vmem, ⟨6, _⟩ => ⟨S16x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .i32⟩
  | .local _ .vmem, ⟨12, _⟩ => ⟨S5000x1, .i32⟩
  | .local _ .vmem, ⟨13, _⟩ => ⟨S100x64, .f32⟩
  | .local _ .vmem, ⟨14, _⟩ => ⟨S100x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x128, .f32⟩
  | .local _ .vmem, ⟨25, _⟩ => ⟨S1x128, .f32⟩
  | .local _ .vmem, ⟨26, _⟩ => ⟨S64x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .i32⟩
  | .local _ .vmem, ⟨32, _⟩ => ⟨S5000x1, .i32⟩
  | .local _ .vmem, ⟨33, _⟩ => ⟨S100x128, .f32⟩
  | .local _ .vmem, ⟨34, _⟩ => ⟨S100x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x256, .f32⟩
  | .local _ .vmem, ⟨45, _⟩ => ⟨S1x256, .f32⟩
  | .local _ .vmem, ⟨46, _⟩ => ⟨S128x256, .f32⟩
  | .local _ .vmem, ⟨47, _⟩ => ⟨S5000x256, .f32⟩
  | .local _ .vmem, ⟨48, _⟩ => ⟨S5000x256, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_c : Ref sig .tc := ⟨.hbm, 38, rfl⟩
abbrev main_v5 : Ref sig .tc := ⟨.hbm, 39, rfl⟩
abbrev main_v6 : Ref sig .tc := ⟨.hbm, 40, rfl⟩
abbrev main_c_0 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst : Ref sig .tc := ⟨.hbm, 47, rfl⟩
abbrev main_v12 : Ref sig .tc := ⟨.hbm, 48, rfl⟩
abbrev main_cst_1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_4 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_5 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_6 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_7 : Ref sig .tc := ⟨.hbm, 80, rfl⟩
abbrev main_v38 : Ref sig .tc := ⟨.hbm, 81, rfl⟩
abbrev main_v39 : Ref sig .tc := ⟨.hbm, 82, rfl⟩
abbrev main_c_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_9 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_10 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_c_11 : Ref sig .tc := ⟨.hbm, 108, rfl⟩
abbrev main_v62 : Ref sig .tc := ⟨.hbm, 109, rfl⟩
abbrev main_v63 : Ref sig .tc := ⟨.hbm, 110, rfl⟩
abbrev main_c_12 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_13 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_14 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_15 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_16 : Ref sig .tc := ⟨.hbm, 135, rfl⟩
abbrev main_v84 : Ref sig .tc := ⟨.hbm, 136, rfl⟩
abbrev main_v85 : Ref sig .tc := ⟨.hbm, 137, rfl⟩
abbrev main_c_17 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_18 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_19 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_c_20 : Ref sig .tc := ⟨.hbm, 163, rfl⟩
abbrev main_v108 : Ref sig .tc := ⟨.hbm, 164, rfl⟩
abbrev main_v109 : Ref sig .tc := ⟨.hbm, 165, rfl⟩
abbrev main_c_21 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_22 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_23 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_24 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_25 : Ref sig .tc := ⟨.hbm, 199, rfl⟩
abbrev main_v139 : Ref sig .tc := ⟨.hbm, 200, rfl⟩
abbrev main_cst_26 : Ref sig .tc := ⟨.hbm, 201, rfl⟩
abbrev main_v140 : Ref sig .tc := ⟨.hbm, 202, rfl⟩
abbrev main_v141 : Ref sig .tc := ⟨.hbm, 203, rfl⟩
abbrev main_c_27 : Ref sig .tc := ⟨.hbm, 204, rfl⟩
abbrev main_call0_cst : Ref sig .tc := ⟨.hbm, 205, rfl⟩
abbrev main_call0_v0 : Ref sig .tc := ⟨.hbm, 206, rfl⟩
abbrev main_call0_v1 : Ref sig .tc := ⟨.hbm, 207, rfl⟩
abbrev main_call0_cst_0 : Ref sig .tc := ⟨.hbm, 208, rfl⟩
abbrev main_call0_v2 : Ref sig .tc := ⟨.hbm, 209, rfl⟩
abbrev main_call0_v3 : Ref sig .tc := ⟨.hbm, 210, rfl⟩
abbrev main_call0_v4 : Ref sig .tc := ⟨.hbm, 211, rfl⟩
abbrev main_call0_v5 : Ref sig .tc := ⟨.hbm, 212, rfl⟩
abbrev main_call0_v6 : Ref sig .tc := ⟨.hbm, 213, rfl⟩
abbrev main_call0_v7 : Ref sig .tc := ⟨.hbm, 214, rfl⟩
abbrev main_call0_cst_1 : Ref sig .tc := ⟨.hbm, 215, rfl⟩
abbrev main_call0_v8 : Ref sig .tc := ⟨.hbm, 216, rfl⟩
abbrev main_call0_cst_2 : Ref sig .tc := ⟨.hbm, 217, rfl⟩
abbrev main_call0_v9 : Ref sig .tc := ⟨.hbm, 218, rfl⟩
abbrev main_call0_v10 : Ref sig .tc := ⟨.hbm, 219, rfl⟩
abbrev main_call0_v11 : Ref sig .tc := ⟨.hbm, 220, rfl⟩
abbrev main_call0_cst_3 : Ref sig .tc := ⟨.hbm, 221, rfl⟩
abbrev main_call0_v12 : Ref sig .tc := ⟨.hbm, 222, rfl⟩
abbrev main_call0_cst_4 : Ref sig .tc := ⟨.hbm, 223, rfl⟩
abbrev main_call0_call0_v0 : Ref sig .tc := ⟨.hbm, 224, rfl⟩
abbrev main_call0_call0_v1 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_28 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_cst_29 : Ref sig .tc := ⟨.hbm, 243, rfl⟩
abbrev main_v158 : Ref sig .tc := ⟨.hbm, 244, rfl⟩
abbrev main_v159 : Ref sig .tc := ⟨.hbm, 245, rfl⟩
abbrev main_cst_30 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_31 : Ref sig .tc := ⟨.hbm, 254, rfl⟩
abbrev main_v167 : Ref sig .tc := ⟨.hbm, 255, rfl⟩
abbrev main_cst_32 : Ref sig .tc := ⟨.hbm, 256, rfl⟩
abbrev main_v168 : Ref sig .tc := ⟨.hbm, 257, rfl⟩
abbrev main_v169 : Ref sig .tc := ⟨.hbm, 258, rfl⟩
abbrev main_c_33 : Ref sig .tc := ⟨.hbm, 259, rfl⟩
abbrev main_call2_cst : Ref sig .tc := ⟨.hbm, 260, rfl⟩
abbrev main_call2_v0 : Ref sig .tc := ⟨.hbm, 261, rfl⟩
abbrev main_call2_v1 : Ref sig .tc := ⟨.hbm, 262, rfl⟩
abbrev main_call2_cst_0 : Ref sig .tc := ⟨.hbm, 263, rfl⟩
abbrev main_call2_v2 : Ref sig .tc := ⟨.hbm, 264, rfl⟩
abbrev main_call2_v3 : Ref sig .tc := ⟨.hbm, 265, rfl⟩
abbrev main_call2_v4 : Ref sig .tc := ⟨.hbm, 266, rfl⟩
abbrev main_call2_v5 : Ref sig .tc := ⟨.hbm, 267, rfl⟩
abbrev main_call2_v6 : Ref sig .tc := ⟨.hbm, 268, rfl⟩
abbrev main_call2_v7 : Ref sig .tc := ⟨.hbm, 269, rfl⟩
abbrev main_call2_cst_1 : Ref sig .tc := ⟨.hbm, 270, rfl⟩
abbrev main_call2_v8 : Ref sig .tc := ⟨.hbm, 271, rfl⟩
abbrev main_call2_cst_2 : Ref sig .tc := ⟨.hbm, 272, rfl⟩
abbrev main_call2_v9 : Ref sig .tc := ⟨.hbm, 273, rfl⟩
abbrev main_call2_v10 : Ref sig .tc := ⟨.hbm, 274, rfl⟩
abbrev main_call2_v11 : Ref sig .tc := ⟨.hbm, 275, rfl⟩
abbrev main_call2_cst_3 : Ref sig .tc := ⟨.hbm, 276, rfl⟩
abbrev main_call2_v12 : Ref sig .tc := ⟨.hbm, 277, rfl⟩
abbrev main_call2_cst_4 : Ref sig .tc := ⟨.hbm, 278, rfl⟩
abbrev main_call2_call0_v0 : Ref sig .tc := ⟨.hbm, 279, rfl⟩
abbrev main_call2_call0_v1 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_cst_34 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_cst_35 : Ref sig .tc := ⟨.hbm, 298, rfl⟩
abbrev main_v186 : Ref sig .tc := ⟨.hbm, 299, rfl⟩
abbrev main_v187 : Ref sig .tc := ⟨.hbm, 300, rfl⟩
abbrev main_cst_36 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S100x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100x1 : S_.BroadcastsInDim S100x1 (![] : Fin 0 → Fin S100x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S64_S1x64 : S64.ShapeCasts S1x64
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100x64 : S_.BroadcastsInDim S100x64 (![] : Fin 0 → Fin S100x64.rank)
  bcast_S100x1_S100x64_0_1 : S100x1.BroadcastsInDim S100x64 (![0, 1] : Fin 2 → Fin S100x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x100_d1_w32 : S5000x100.Iotas .tc 32 [1]
  broadcasts_S5000x1_S5000x100 : S5000x1.Broadcasts S5000x100
  natLt_1_32 : 1 < 32
  inb_S100x64_S100x64_0_0 : ∀ a, (![0, 0] : Fin 2 → Nat) a + S100x64.size a ≤ S100x64.size a
  h_S100x64 : 0 < S100x64.numel
  shapeCasts_S100x64_S100x64 : S100x64.ShapeCasts S100x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100x128 : S_.BroadcastsInDim S100x128 (![] : Fin 0 → Fin S100x128.rank)
  bcast_S100x1_S100x128_0_1 : S100x1.BroadcastsInDim S100x128 (![0, 1] : Fin 2 → Fin S100x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S100x128_S100x128_0_0 : ∀ a, (![0, 0] : Fin 2 → Nat) a + S100x128.size a ≤ S100x128.size a
  h_S100x128 : 0 < S100x128.numel
  shapeCasts_S100x128_S100x128 : S100x128.ShapeCasts S100x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S100x256 : S_.BroadcastsInDim S100x256 (![] : Fin 0 → Fin S100x256.rank)
  bcast_S100x1_S100x256_0_1 : S100x1.BroadcastsInDim S100x256 (![0, 1] : Fin 2 → Fin S100x256.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  concatenates_S100x256_S100x16_S100x272_d1 : Shape.Concatenates [S100x256, S100x16] S100x272 1
  bcast_S1x128_S100x128_0_1 : S1x128.BroadcastsInDim S100x128 (![0, 1] : Fin 2 → Fin S100x128.rank)
  reducesTo_S100x128_S128_d0 : S100x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x64_S100x64_0_1 : S1x64.BroadcastsInDim S100x64 (![0, 1] : Fin 2 → Fin S100x64.rank)
  reducesTo_S100x64_S64_d0 : S100x64.ReducesTo [0] S64
  bcast_S_S64 : S_.BroadcastsInDim S64 (![] : Fin 0 → Fin S64.rank)
  bcast_S_S1x64 : S_.BroadcastsInDim S1x64 (![] : Fin 0 → Fin S1x64.rank)
  bcast_S3_S1x3_1 : S3.BroadcastsInDim S1x3 (![1] : Fin 1 → Fin S1x3.rank)
  bcast_S1x3_S100x3_0_1 : S1x3.BroadcastsInDim S100x3 (![0, 1] : Fin 2 → Fin S100x3.rank)
  gather_S10000x16_S100000x1_S100000x16_1_0_n_n_0_1_116_wf : GatherDims.WF S10000x16 S100000x1 S100000x16 [1] [0] [] [0] [] 1 ![1, 16]
  scatter_S100x1_S100000x1_S100000x1_1_0_0_1_wf : ScatterDims.WF S100x1 S100000x1 S100000x1 [1] [0] [0] 1
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x64_S5000x64_1_0_0_1_n_n_wf : DotDims.WF S5000x16 S16x64 S5000x64 [1] [0] [0] [1] [] []
  scatter_S100x64_S100000x1_S100000x64_1_0_0_1_wf : ScatterDims.WF S100x64 S100000x1 S100000x64 [1] [0] [0] 1
  gather_S100x64_S100000x1_S100000x64_1_0_n_n_0_1_164_wf : GatherDims.WF S100x64 S100000x1 S100000x64 [1] [0] [] [0] [] 1 ![1, 64]
  dot_S5000x100_S100x64_S5000x64_1_0_0_1_n_n_wf : DotDims.WF S5000x100 S100x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  scatter_S100x128_S100000x1_S100000x128_1_0_0_1_wf : ScatterDims.WF S100x128 S100000x1 S100000x128 [1] [0] [0] 1
  gather_S100x128_S100000x1_S100000x128_1_0_n_n_0_1_1128_wf : GatherDims.WF S100x128 S100000x1 S100000x128 [1] [0] [] [0] [] 1 ![1, 128]
  dot_S5000x100_S100x128_S5000x128_1_0_0_1_n_n_wf : DotDims.WF S5000x100 S100x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  scatter_S100x256_S100000x1_S100000x256_1_0_0_1_wf : ScatterDims.WF S100x256 S100000x1 S100000x256 [1] [0] [0] 1
  dot_S100x4_S4x16_S100x16_1_0_0_1_n_n_wf : DotDims.WF S100x4 S4x16 S100x16 [1] [0] [0] [1] [] []
  dot_S100x272_S272x128_S100x128_1_0_0_1_n_n_wf : DotDims.WF S100x272 S272x128 S100x128 [1] [0] [0] [1] [] []
  dot_S100x128_S128x64_S100x64_1_0_0_1_n_n_wf : DotDims.WF S100x128 S128x64 S100x64 [1] [0] [0] [1] [] []
  dot_S100x64_S64x3_S100x3_1_0_0_1_n_n_wf : DotDims.WF S100x64 S64x3 S100x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S100000x16.size a
  hwx0_1 : ∀ i : grid0.Coords, EltTy.bits .f32 = 32 ∨ (Rect.block (s := S100000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x64.size a ≤ S100x64.size a
  hwx1_2 : ∀ i : grid1.Coords, EltTy.bits .f32 = 32 ∨ (Rect.block (s := S100x64) S100x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x64.size a ≤ S100x64.size a
  hwx1_3 : ∀ i : grid1.Coords, EltTy.bits .f32 = 32 ∨ (Rect.block (s := S100x64) S100x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100x128.size a ≤ S100x128.size a
  hwx3_2 : ∀ i : grid3.Coords, EltTy.bits .f32 = 32 ∨ (Rect.block (s := S100x128) S100x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S100x128.size a ≤ S100x128.size a
  hwx3_3 : ∀ i : grid3.Coords, EltTy.bits .f32 = 32 ∨ (Rect.block (s := S100x128) S100x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x256.size a ≤ S128x256.size a
  hwx4_4 : ∀ i : grid4.Coords, EltTy.bits .f32 = 32 ∨ (Rect.block (s := S128x256) S128x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x256.size a ≤ S100000x256.size a
  hwx4_5 : ∀ i : grid4.Coords, EltTy.bits .f32 = 32 ∨ (Rect.block (s := S100000x256) S5000x256.size (cc4_transform_5 i) (hinb4_5 i)).WholeWords (EltTy.packing .f32)

variable [Facts₀]

def gather_S10000x16_S100000x1_S100000x16_1_0_n_n_0_1_116 : GatherDims S10000x16 S100000x1 S100000x16 where
  offsetDims := [1]
  collapsedSliceDims := [0]
  operandBatchingDims := []
  startIndicesBatchingDims := []
  startIndexMap := [0]
  indexVectorDim := 1
  sliceSizes := ![1, 16]
  wf := gather_S10000x16_S100000x1_S100000x16_1_0_n_n_0_1_116_wf
def scatter_S100x1_S100000x1_S100000x1_1_0_0_1 : ScatterDims S100x1 S100000x1 S100000x1 where
  updateWindowDims := [1]
  insertedWindowDims := [0]
  scatterDimsToOperandDims := [0]
  indexVectorDim := 1
  wf := scatter_S100x1_S100000x1_S100000x1_1_0_0_1_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S100x256_S100000x1_S100000x256_1_0_0_1 : ScatterDims S100x256 S100000x1 S100000x256 where
  updateWindowDims := [1]
  insertedWindowDims := [0]
  scatterDimsToOperandDims := [0]
  indexVectorDim := 1
  wf := scatter_S100x256_S100000x1_S100000x256_1_0_0_1_wf
def dot_S100x4_S4x16_S100x16_1_0_0_1_n_n : DotDims S100x4 S4x16 S100x16 where
  lhsContracting := [1]
  rhsContracting := [0]
  lhsNonContracting := [0]
  rhsNonContracting := [1]
  lhsBatch := []
  rhsBatch := []
  wf := dot_S100x4_S4x16_S100x16_1_0_0_1_n_n_wf
def dot_S100x272_S272x128_S100x128_1_0_0_1_n_n : DotDims S100x272 S272x128 S100x128 where
  lhsContracting := [1]
  rhsContracting := [0]
  lhsNonContracting := [0]
  rhsNonContracting := [1]
  lhsBatch := []
  rhsBatch := []
  wf := dot_S100x272_S272x128_S100x128_1_0_0_1_n_n_wf
def dot_S100x128_S128x64_S100x64_1_0_0_1_n_n : DotDims S100x128 S128x64 S100x64 where
  lhsContracting := [1]
  rhsContracting := [0]
  lhsNonContracting := [0]
  rhsNonContracting := [1]
  lhsBatch := []
  rhsBatch := []
  wf := dot_S100x128_S128x64_S100x64_1_0_0_1_n_n_wf
def dot_S100x64_S64x3_S100x3_1_0_0_1_n_n : DotDims S100x64 S64x3 S100x3 where
  lhsContracting := [1]
  rhsContracting := [0]
  lhsNonContracting := [0]
  rhsNonContracting := [1]
  lhsBatch := []
  rhsBatch := []
  wf := dot_S100x64_S64x3_S100x3_1_0_0_1_n_n_wf

abbrev win0_0 : Pipeline.Window sig grid0 :=
  Pipeline.Window.ofSpec (Memref.whole main_v28) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S100x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S100x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v74) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S100x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S100x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v104) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v105) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v106) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v107) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v120) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v107) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v121) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v122) S5000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000x1 : Shape := ⟨2, ![1600000, 1]⟩
abbrev S100x4 : Shape := ⟨2, ![100, 4]⟩
abbrev S10000x16 : Shape := ⟨2, ![10000, 16]⟩
abbrev S16x64 : Shape := ⟨2, ![16, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S4x16 : Shape := ⟨2, ![4, 16]⟩
abbrev S16 : Shape := ⟨1, ![16]⟩
abbrev S272x128 : Shape := ⟨2, ![272, 128]⟩
abbrev S128x64 : Shape := ⟨2, ![128, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x16 : Shape := ⟨2, ![100000, 16]⟩
abbrev S1600000x16 : Shape := ⟨2, ![1600000, 16]⟩
abbrev S100000x64 : Shape := ⟨2, ![100000, 64]⟩
abbrev S1x64 : Shape := ⟨2, ![1, 64]⟩
abbrev S100x64 : Shape := ⟨2, ![100, 64]⟩
abbrev S100x1 : Shape := ⟨2, ![100, 1]⟩
abbrev S1600000x64 : Shape := ⟨2, ![1600000, 64]⟩
abbrev S100000x128 : Shape := ⟨2, ![100000, 128]⟩
abbrev S1x128 : Shape := ⟨2, ![1, 128]⟩
abbrev S100x128 : Shape := ⟨2, ![100, 128]⟩
abbrev S1600000x128 : Shape := ⟨2, ![1600000, 128]⟩
abbrev S100000x256 : Shape := ⟨2, ![100000, 256]⟩
abbrev S1x256 : Shape := ⟨2, ![1, 256]⟩
abbrev S100x256 : Shape := ⟨2, ![100, 256]⟩
abbrev S100x16 : Shape := ⟨2, ![100, 16]⟩
abbrev S1x16 : Shape := ⟨2, ![1, 16]⟩
abbrev S100x272 : Shape := ⟨2, ![100, 272]⟩
abbrev S100x3 : Shape := ⟨2, ![100, 3]⟩
abbrev S1x3 : Shape := ⟨2, ![1, 3]⟩

abbrev nBuf : Space → Nat
  | .hbm => 389
  | .vmem => 0
  | .smem => 0
  | _ => 0

abbrev hbmTy0_0 (i : Nat) : BufTy := match i % 128 with
  | 0 => ⟨S100000, .i32⟩
  | 1 => ⟨S2x1600000, .i32⟩
  | 2 => ⟨S1600000x1, .f32⟩
  | 3 => ⟨S100000, .i32⟩
  | 4 => ⟨S100x4, .f32⟩
  | 5 => ⟨S10000x16, .f32⟩
  | 6 => ⟨S16x64, .f32⟩
  | 7 => ⟨S64, .f32⟩
  | 8 => ⟨S16x64, .f32⟩
  | 9 => ⟨S64x128, .f32⟩
  | 10 => ⟨S128, .f32⟩
  | 11 => ⟨S64x128, .f32⟩
  | 12 => ⟨S128x256, .f32⟩
  | 13 => ⟨S256, .f32⟩
  | 14 => ⟨S128x256, .f32⟩
  | 15 => ⟨S64, .f32⟩
  | 16 => ⟨S64, .f32⟩
  | 17 => ⟨S64, .f32⟩
  | 18 => ⟨S128, .f32⟩
  | 19 => ⟨S128, .f32⟩
  | 20 => ⟨S128, .f32⟩
  | 21 => ⟨S4x16, .f32⟩
  | 22 => ⟨S16, .f32⟩
  | 23 => ⟨S272x128, .f32⟩
  | 24 => ⟨S128, .f32⟩
  | 25 => ⟨S128, .f32⟩
  | 26 => ⟨S128, .f32⟩
  | 27 => ⟨S128x64, .f32⟩
  | 28 => ⟨S64, .f32⟩
  | 29 => ⟨S64, .f32⟩
  | 30 => ⟨S64, .f32⟩
  | 31 => ⟨S64x3, .f32⟩
  | 32 => ⟨S3, .f32⟩
  | 33 => ⟨S1x1600000, .i32⟩
  | 34 => ⟨S1600000, .i32⟩
  | 35 => ⟨S1x1600000, .i32⟩
  | 36 => ⟨S1600000, .i32⟩
  | 37 => ⟨S1600000, .f32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x16, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x16, .f32⟩
  | 56 => ⟨S1600000x1, .f32⟩
  | 57 => ⟨S1600000x16, .f32⟩
  | 58 => ⟨S1600000x16, .f32⟩
  | 59 => ⟨S_, .f32⟩
  | 60 => ⟨S100000x16, .f32⟩
  | 61 => ⟨S1600000x1, .i32⟩
  | 62 => ⟨S100000x16, .f32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S100000x64, .f32⟩
  | 69 => ⟨S_, .f32⟩
  | 70 => ⟨S100x64, .f32⟩
  | 71 => ⟨S100000x1, .i32⟩
  | 72 => ⟨S100x64, .f32⟩
  | 73 => ⟨S_, .f32⟩
  | 74 => ⟨S100000x1, .f32⟩
  | 75 => ⟨S_, .f32⟩
  | 76 => ⟨S100x1, .f32⟩
  | 77 => ⟨S100000x1, .i32⟩
  | 78 => ⟨S100x1, .f32⟩
  | 79 => ⟨S_, .f32⟩
  | 80 => ⟨S100x1, .f32⟩
  | 81 => ⟨S100x1, .f32⟩
  | 82 => ⟨S100x64, .f32⟩
  | 83 => ⟨S100x64, .f32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x64, .f32⟩
  | 93 => ⟨S1x64, .f32⟩
  | 94 => ⟨S100000x64, .f32⟩
  | 95 => ⟨S100000x64, .f32⟩
  | 96 => ⟨S100000x64, .f32⟩
  | 97 => ⟨S100000x64, .f32⟩
  | 98 => ⟨S_, .f32⟩
  | 99 => ⟨S100x64, .f32⟩
  | 100 => ⟨S100000x1, .i32⟩
  | 101 => ⟨S100x64, .f32⟩
  | 102 => ⟨S_, .f32⟩
  | 103 => ⟨S100000x1, .f32⟩
  | 104 => ⟨S_, .f32⟩
  | 105 => ⟨S100x1, .f32⟩
  | 106 => ⟨S100000x1, .i32⟩
  | 107 => ⟨S100x1, .f32⟩
  | 108 => ⟨S_, .f32⟩
  | 109 => ⟨S100x1, .f32⟩
  | 110 => ⟨S100x1, .f32⟩
  | 111 => ⟨S100x64, .f32⟩
  | 112 => ⟨S100x64, .f32⟩
  | 113 => ⟨S1x64, .f32⟩
  | 114 => ⟨S100000x64, .f32⟩
  | 115 => ⟨S100000x64, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x64, .f32⟩
  | 125 => ⟨S_, .f32⟩
  | 126 => ⟨S100000x64, .f32⟩
  | 127 => ⟨S100000x64, .f32⟩
  | _ => ⟨S100000, .i32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .i1⟩
  | 8 => ⟨S_, .f32⟩
  | 9 => ⟨S100000x64, .f32⟩
  | 10 => ⟨S100000x64, .f32⟩
  | 11 => ⟨S100000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S1600000x1, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x128, .f32⟩
  | 29 => ⟨S1x128, .f32⟩
  | 30 => ⟨S100000x128, .f32⟩
  | 31 => ⟨S100000x128, .f32⟩
  | 32 => ⟨S100000x128, .f32⟩
  | 33 => ⟨S100000x128, .f32⟩
  | 34 => ⟨S_, .f32⟩
  | 35 => ⟨S100x128, .f32⟩
  | 36 => ⟨S100000x1, .i32⟩
  | 37 => ⟨S100x128, .f32⟩
  | 38 => ⟨S_, .f32⟩
  | 39 => ⟨S100000x1, .f32⟩
  | 40 => ⟨S_, .f32⟩
  | 41 => ⟨S100x1, .f32⟩
  | 42 => ⟨S100000x1, .i32⟩
  | 43 => ⟨S100x1, .f32⟩
  | 44 => ⟨S_, .f32⟩
  | 45 => ⟨S100x1, .f32⟩
  | 46 => ⟨S100x1, .f32⟩
  | 47 => ⟨S100x128, .f32⟩
  | 48 => ⟨S100x128, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x128, .f32⟩
  | 58 => ⟨S1x128, .f32⟩
  | 59 => ⟨S100000x128, .f32⟩
  | 60 => ⟨S100000x128, .f32⟩
  | 61 => ⟨S100000x128, .f32⟩
  | 62 => ⟨S100000x128, .f32⟩
  | 63 => ⟨S_, .f32⟩
  | 64 => ⟨S100x128, .f32⟩
  | 65 => ⟨S100000x1, .i32⟩
  | 66 => ⟨S100x128, .f32⟩
  | 67 => ⟨S_, .f32⟩
  | 68 => ⟨S100000x1, .f32⟩
  | 69 => ⟨S_, .f32⟩
  | 70 => ⟨S100x1, .f32⟩
  | 71 => ⟨S100000x1, .i32⟩
  | 72 => ⟨S100x1, .f32⟩
  | 73 => ⟨S_, .f32⟩
  | 74 => ⟨S100x1, .f32⟩
  | 75 => ⟨S100x1, .f32⟩
  | 76 => ⟨S100x128, .f32⟩
  | 77 => ⟨S100x128, .f32⟩
  | 78 => ⟨S1x128, .f32⟩
  | 79 => ⟨S100000x128, .f32⟩
  | 80 => ⟨S100000x128, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S1600000x1, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x256, .f32⟩
  | 122 => ⟨S1x256, .f32⟩
  | 123 => ⟨S100000x256, .f32⟩
  | 124 => ⟨S100000x256, .f32⟩
  | 125 => ⟨S100000x256, .f32⟩
  | 126 => ⟨S100000x256, .f32⟩
  | 127 => ⟨S_, .f32⟩
  | _ => ⟨S100000, .i32⟩

abbrev hbmTy0_2 (i : Nat) : BufTy := match i % 128 with
  | 0 => ⟨S100x256, .f32⟩
  | 1 => ⟨S100000x1, .i32⟩
  | 2 => ⟨S100x256, .f32⟩
  | 3 => ⟨S_, .f32⟩
  | 4 => ⟨S100000x1, .f32⟩
  | 5 => ⟨S_, .f32⟩
  | 6 => ⟨S100x1, .f32⟩
  | 7 => ⟨S100000x1, .i32⟩
  | 8 => ⟨S100x1, .f32⟩
  | 9 => ⟨S_, .f32⟩
  | 10 => ⟨S100x1, .f32⟩
  | 11 => ⟨S100x1, .f32⟩
  | 12 => ⟨S100x256, .f32⟩
  | 13 => ⟨S100x256, .f32⟩
  | 14 => ⟨S100x16, .f32⟩
  | 15 => ⟨S1x16, .f32⟩
  | 16 => ⟨S100x16, .f32⟩
  | 17 => ⟨S100x16, .f32⟩
  | 18 => ⟨S100x272, .f32⟩
  | 19 => ⟨S100x128, .f32⟩
  | 20 => ⟨S1x128, .f32⟩
  | 21 => ⟨S100x128, .f32⟩
  | 22 => ⟨S100x128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S100x128, .f32⟩
  | 36 => ⟨S100x128, .f32⟩
  | 37 => ⟨S100x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S100x128, .f32⟩
  | 53 => ⟨S100x128, .f32⟩
  | 54 => ⟨S1x128, .f32⟩
  | 55 => ⟨S100x128, .f32⟩
  | 56 => ⟨S100x128, .f32⟩
  | 57 => ⟨S_, .f32⟩
  | 58 => ⟨S128, .f32⟩
  | 59 => ⟨S128, .f32⟩
  | 60 => ⟨S128, .f32⟩
  | 61 => ⟨S1x128, .f32⟩
  | 62 => ⟨S100x128, .f32⟩
  | 63 => ⟨S100x128, .f32⟩
  | 64 => ⟨S1x128, .f32⟩
  | 65 => ⟨S100x128, .f32⟩
  | 66 => ⟨S100x128, .f32⟩
  | 67 => ⟨S_, .f32⟩
  | 68 => ⟨S100x128, .f32⟩
  | 69 => ⟨S100x128, .i1⟩
  | 70 => ⟨S_, .f32⟩
  | 71 => ⟨S100x128, .f32⟩
  | 72 => ⟨S100x128, .f32⟩
  | 73 => ⟨S100x128, .f32⟩
  | 74 => ⟨S100x64, .f32⟩
  | 75 => ⟨S1x64, .f32⟩
  | 76 => ⟨S100x64, .f32⟩
  | 77 => ⟨S100x64, .f32⟩
  | 78 => ⟨S_, .f32⟩
  | 79 => ⟨S64, .f32⟩
  | 80 => ⟨S_, .f32⟩
  | 81 => ⟨S64, .f32⟩
  | 82 => ⟨S64, .f32⟩
  | 83 => ⟨S_, .i32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S100x64, .f32⟩
  | 91 => ⟨S100x64, .f32⟩
  | 92 => ⟨S100x64, .f32⟩
  | 93 => ⟨S_, .f32⟩
  | 94 => ⟨S_, .f32⟩
  | 95 => ⟨S_, .f32⟩
  | 96 => ⟨S_, .f32⟩
  | 97 => ⟨S64, .f32⟩
  | 98 => ⟨S64, .f32⟩
  | 99 => ⟨S64, .f32⟩
  | 100 => ⟨S_, .f32⟩
  | 101 => ⟨S_, .i1⟩
  | 102 => ⟨S_, .f32⟩
  | 103 => ⟨S_, .f32⟩
  | 104 => ⟨S64, .f32⟩
  | 105 => ⟨S64, .f32⟩
  | 106 => ⟨S1x64, .f32⟩
  | 107 => ⟨S100x64, .f32⟩
  | 108 => ⟨S100x64, .f32⟩
  | 109 => ⟨S1x64, .f32⟩
  | 110 => ⟨S100x64, .f32⟩
  | 111 => ⟨S100x64, .f32⟩
  | 112 => ⟨S_, .f32⟩
  | 113 => ⟨S64, .f32⟩
  | 114 => ⟨S64, .f32⟩
  | 115 => ⟨S64, .f32⟩
  | 116 => ⟨S1x64, .f32⟩
  | 117 => ⟨S100x64, .f32⟩
  | 118 => ⟨S100x64, .f32⟩
  | 119 => ⟨S1x64, .f32⟩
  | 120 => ⟨S100x64, .f32⟩
  | 121 => ⟨S100x64, .f32⟩
  | 122 => ⟨S_, .f32⟩
  | 123 => ⟨S100x64, .f32⟩
  | 124 => ⟨S100x64, .i1⟩
  | 125 => ⟨S_, .f32⟩
  | 126 => ⟨S100x64, .f32⟩
  | 127 => ⟨S100x64, .f32⟩
  | _ => ⟨S100000, .i32⟩

abbrev hbmTy0_3 (i : Nat) : BufTy := match i % 128 with
  | 0 => ⟨S100x64, .f32⟩
  | 1 => ⟨S100x3, .f32⟩
  | 2 => ⟨S1x3, .f32⟩
  | 3 => ⟨S100x3, .f32⟩
  | 4 => ⟨S100x3, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_c : Ref sig .tc := ⟨.hbm, 38, rfl⟩
abbrev main_v5 : Ref sig .tc := ⟨.hbm, 39, rfl⟩
abbrev main_v6 : Ref sig .tc := ⟨.hbm, 40, rfl⟩
abbrev main_c_0 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_c_1 : Ref sig .tc := ⟨.hbm, 47, rfl⟩
abbrev main_v12 : Ref sig .tc := ⟨.hbm, 48, rfl⟩
abbrev main_v13 : Ref sig .tc := ⟨.hbm, 49, rfl⟩
abbrev main_c_2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_3 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_4 : Ref sig .tc := ⟨.hbm, 73, rfl⟩
abbrev main_v34 : Ref sig .tc := ⟨.hbm, 74, rfl⟩
abbrev main_cst_5 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_6 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_7 : Ref sig .tc := ⟨.hbm, 84, rfl⟩
abbrev main_v42 : Ref sig .tc := ⟨.hbm, 85, rfl⟩
abbrev main_v43 : Ref sig .tc := ⟨.hbm, 86, rfl⟩
abbrev main_c_8 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_9 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_10 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_12 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_13 : Ref sig .tc := ⟨.hbm, 116, rfl⟩
abbrev main_v68 : Ref sig .tc := ⟨.hbm, 117, rfl⟩
abbrev main_v69 : Ref sig .tc := ⟨.hbm, 118, rfl⟩
abbrev main_c_14 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_15 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_16 : Ref sig .tc := ⟨.hbm, 133, rfl⟩
abbrev main_v82 : Ref sig .tc := ⟨.hbm, 134, rfl⟩
abbrev main_v83 : Ref sig .tc := ⟨.hbm, 135, rfl⟩
abbrev main_cst_17 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c_18 : Ref sig .tc := ⟨.hbm, 140, rfl⟩
abbrev main_v87 : Ref sig .tc := ⟨.hbm, 141, rfl⟩
abbrev main_v88 : Ref sig .tc := ⟨.hbm, 142, rfl⟩
abbrev main_c_19 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_20 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_21 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_22 : Ref sig .tc := ⟨.hbm, 166, rfl⟩
abbrev main_v109 : Ref sig .tc := ⟨.hbm, 167, rfl⟩
abbrev main_cst_23 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_24 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_25 : Ref sig .tc := ⟨.hbm, 177, rfl⟩
abbrev main_v117 : Ref sig .tc := ⟨.hbm, 178, rfl⟩
abbrev main_v118 : Ref sig .tc := ⟨.hbm, 179, rfl⟩
abbrev main_c_26 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_27 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_28 : Ref sig .tc := ⟨.hbm, 195, rfl⟩
abbrev main_v132 : Ref sig .tc := ⟨.hbm, 196, rfl⟩
abbrev main_cst_29 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_cst_30 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_c_31 : Ref sig .tc := ⟨.hbm, 209, rfl⟩
abbrev main_v143 : Ref sig .tc := ⟨.hbm, 210, rfl⟩
abbrev main_v144 : Ref sig .tc := ⟨.hbm, 211, rfl⟩
abbrev main_c_32 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_33 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_34 : Ref sig .tc := ⟨.hbm, 226, rfl⟩
abbrev main_v157 : Ref sig .tc := ⟨.hbm, 227, rfl⟩
abbrev main_v158 : Ref sig .tc := ⟨.hbm, 228, rfl⟩
abbrev main_cst_35 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_c_36 : Ref sig .tc := ⟨.hbm, 233, rfl⟩
abbrev main_v162 : Ref sig .tc := ⟨.hbm, 234, rfl⟩
abbrev main_v163 : Ref sig .tc := ⟨.hbm, 235, rfl⟩
abbrev main_c_37 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_cst_38 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_cst_39 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_cst_40 : Ref sig .tc := ⟨.hbm, 259, rfl⟩
abbrev main_v184 : Ref sig .tc := ⟨.hbm, 260, rfl⟩
abbrev main_cst_41 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_cst_42 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_cst_43 : Ref sig .tc := ⟨.hbm, 279, rfl⟩
abbrev main_v201 : Ref sig .tc := ⟨.hbm, 280, rfl⟩
abbrev main_cst_44 : Ref sig .tc := ⟨.hbm, 281, rfl⟩
abbrev main_v202 : Ref sig .tc := ⟨.hbm, 282, rfl⟩
abbrev main_v203 : Ref sig .tc := ⟨.hbm, 283, rfl⟩
abbrev main_c_45 : Ref sig .tc := ⟨.hbm, 284, rfl⟩
abbrev main_call2_cst : Ref sig .tc := ⟨.hbm, 285, rfl⟩
abbrev main_call2_v0 : Ref sig .tc := ⟨.hbm, 286, rfl⟩
abbrev main_call2_v1 : Ref sig .tc := ⟨.hbm, 287, rfl⟩
abbrev main_call2_cst_0 : Ref sig .tc := ⟨.hbm, 288, rfl⟩
abbrev main_call2_v2 : Ref sig .tc := ⟨.hbm, 289, rfl⟩
abbrev main_call2_v3 : Ref sig .tc := ⟨.hbm, 290, rfl⟩
abbrev main_call2_v4 : Ref sig .tc := ⟨.hbm, 291, rfl⟩
abbrev main_call2_v5 : Ref sig .tc := ⟨.hbm, 292, rfl⟩
abbrev main_call2_v6 : Ref sig .tc := ⟨.hbm, 293, rfl⟩
abbrev main_call2_v7 : Ref sig .tc := ⟨.hbm, 294, rfl⟩
abbrev main_call2_cst_1 : Ref sig .tc := ⟨.hbm, 295, rfl⟩
abbrev main_call2_v8 : Ref sig .tc := ⟨.hbm, 296, rfl⟩
abbrev main_call2_cst_2 : Ref sig .tc := ⟨.hbm, 297, rfl⟩
abbrev main_call2_v9 : Ref sig .tc := ⟨.hbm, 298, rfl⟩
abbrev main_call2_v10 : Ref sig .tc := ⟨.hbm, 299, rfl⟩
abbrev main_call2_v11 : Ref sig .tc := ⟨.hbm, 300, rfl⟩
abbrev main_call2_cst_3 : Ref sig .tc := ⟨.hbm, 301, rfl⟩
abbrev main_call2_v12 : Ref sig .tc := ⟨.hbm, 302, rfl⟩
abbrev main_call2_cst_4 : Ref sig .tc := ⟨.hbm, 303, rfl⟩
abbrev main_call2_call0_v0 : Ref sig .tc := ⟨.hbm, 304, rfl⟩
abbrev main_call2_call0_v1 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_cst_46 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_cst_47 : Ref sig .tc := ⟨.hbm, 323, rfl⟩
abbrev main_v220 : Ref sig .tc := ⟨.hbm, 324, rfl⟩
abbrev main_v221 : Ref sig .tc := ⟨.hbm, 325, rfl⟩
abbrev main_cst_48 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_cst_49 : Ref sig .tc := ⟨.hbm, 334, rfl⟩
abbrev main_v229 : Ref sig .tc := ⟨.hbm, 335, rfl⟩
abbrev main_cst_50 : Ref sig .tc := ⟨.hbm, 336, rfl⟩
abbrev main_v230 : Ref sig .tc := ⟨.hbm, 337, rfl⟩
abbrev main_v231 : Ref sig .tc := ⟨.hbm, 338, rfl⟩
abbrev main_c_51 : Ref sig .tc := ⟨.hbm, 339, rfl⟩
abbrev main_call4_cst : Ref sig .tc := ⟨.hbm, 340, rfl⟩
abbrev main_call4_v0 : Ref sig .tc := ⟨.hbm, 341, rfl⟩
abbrev main_call4_v1 : Ref sig .tc := ⟨.hbm, 342, rfl⟩
abbrev main_call4_cst_0 : Ref sig .tc := ⟨.hbm, 343, rfl⟩
abbrev main_call4_v2 : Ref sig .tc := ⟨.hbm, 344, rfl⟩
abbrev main_call4_v3 : Ref sig .tc := ⟨.hbm, 345, rfl⟩
abbrev main_call4_v4 : Ref sig .tc := ⟨.hbm, 346, rfl⟩
abbrev main_call4_v5 : Ref sig .tc := ⟨.hbm, 347, rfl⟩
abbrev main_call4_v6 : Ref sig .tc := ⟨.hbm, 348, rfl⟩
abbrev main_call4_v7 : Ref sig .tc := ⟨.hbm, 349, rfl⟩
abbrev main_call4_cst_1 : Ref sig .tc := ⟨.hbm, 350, rfl⟩
abbrev main_call4_v8 : Ref sig .tc := ⟨.hbm, 351, rfl⟩
abbrev main_call4_cst_2 : Ref sig .tc := ⟨.hbm, 352, rfl⟩
abbrev main_call4_v9 : Ref sig .tc := ⟨.hbm, 353, rfl⟩
abbrev main_call4_v10 : Ref sig .tc := ⟨.hbm, 354, rfl⟩
abbrev main_call4_v11 : Ref sig .tc := ⟨.hbm, 355, rfl⟩
abbrev main_call4_cst_3 : Ref sig .tc := ⟨.hbm, 356, rfl⟩
abbrev main_call4_v12 : Ref sig .tc := ⟨.hbm, 357, rfl⟩
abbrev main_call4_cst_4 : Ref sig .tc := ⟨.hbm, 358, rfl⟩
abbrev main_call4_call0_v0 : Ref sig .tc := ⟨.hbm, 359, rfl⟩
abbrev main_call4_call0_v1 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_cst_52 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_cst_53 : Ref sig .tc := ⟨.hbm, 378, rfl⟩
abbrev main_v248 : Ref sig .tc := ⟨.hbm, 379, rfl⟩
abbrev main_v249 : Ref sig .tc := ⟨.hbm, 380, rfl⟩
abbrev main_cst_54 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_v255 : Ref sig .tc := ⟨.hbm, 387, rfl⟩
abbrev main_v256 : Ref sig .tc := ⟨.hbm, 388, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S1600000 : S1600000x1.ShapeCasts S1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100x64 : S_.BroadcastsInDim S100x64 (![] : Fin 0 → Fin S100x64.rank)
  bcast_S_S100000x1 : S_.BroadcastsInDim S100000x1 (![] : Fin 0 → Fin S100000x1.rank)
  bcast_S_S100x1 : S_.BroadcastsInDim S100x1 (![] : Fin 0 → Fin S100x1.rank)
  bcast_S100x1_S100x64_0_1 : S100x1.BroadcastsInDim S100x64 (![0, 1] : Fin 2 → Fin S100x64.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100x128 : S_.BroadcastsInDim S100x128 (![] : Fin 0 → Fin S100x128.rank)
  bcast_S100x1_S100x128_0_1 : S100x1.BroadcastsInDim S100x128 (![0, 1] : Fin 2 → Fin S100x128.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100x256 : S_.BroadcastsInDim S100x256 (![] : Fin 0 → Fin S100x256.rank)
  bcast_S100x1_S100x256_0_1 : S100x1.BroadcastsInDim S100x256 (![0, 1] : Fin 2 → Fin S100x256.rank)
  bcast_S16_S1x16_1 : S16.BroadcastsInDim S1x16 (![1] : Fin 1 → Fin S1x16.rank)
  bcast_S1x16_S100x16_0_1 : S1x16.BroadcastsInDim S100x16 (![0, 1] : Fin 2 → Fin S100x16.rank)
  concatenates_S100x256_S100x16_S100x272_d1 : Shape.Concatenates [S100x256, S100x16] S100x272 1
  bcast_S1x128_S100x128_0_1 : S1x128.BroadcastsInDim S100x128 (![0, 1] : Fin 2 → Fin S100x128.rank)
  reducesTo_S100x128_S128_d0 : S100x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x64_S100x64_0_1 : S1x64.BroadcastsInDim S100x64 (![0, 1] : Fin 2 → Fin S100x64.rank)
  reducesTo_S100x64_S64_d0 : S100x64.ReducesTo [0] S64
  bcast_S_S64 : S_.BroadcastsInDim S64 (![] : Fin 0 → Fin S64.rank)
  bcast_S_S1x64 : S_.BroadcastsInDim S1x64 (![] : Fin 0 → Fin S1x64.rank)
  bcast_S3_S1x3_1 : S3.BroadcastsInDim S1x3 (![1] : Fin 1 → Fin S1x3.rank)
  bcast_S1x3_S100x3_0_1 : S1x3.BroadcastsInDim S100x3 (![0, 1] : Fin 2 → Fin S100x3.rank)
  gather_S10000x16_S100000x1_S100000x16_1_0_n_n_0_1_116_wf : GatherDims.WF S10000x16 S100000x1 S100000x16 [1] [0] [] [0] [] 1 ![1, 16]
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x64_S100000x64_1_0_0_1_n_n_wf : DotDims.WF S100000x16 S16x64 S100000x64 [1] [0] [0] [1] [] []
  scatter_S100x64_S100000x1_S100000x64_1_0_0_1_wf : ScatterDims.WF S100x64 S100000x1 S100000x64 [1] [0] [0] 1
  scatter_S100x1_S100000x1_S100000x1_1_0_0_1_wf : ScatterDims.WF S100x1 S100000x1 S100000x1 [1] [0] [0] 1
  gather_S100x64_S100000x1_S100000x64_1_0_n_n_0_1_164_wf : GatherDims.WF S100x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  scatter_S100x128_S100000x1_S100000x128_1_0_0_1_wf : ScatterDims.WF S100x128 S100000x1 S100000x128 [1] [0] [0] 1
  gather_S100x128_S100000x1_S100000x128_1_0_n_n_0_1_1128_wf : GatherDims.WF S100x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  scatter_S100x256_S100000x1_S100000x256_1_0_0_1_wf : ScatterDims.WF S100x256 S100000x1 S100000x256 [1] [0] [0] 1
  dot_S100x4_S4x16_S100x16_1_0_0_1_n_n_wf : DotDims.WF S100x4 S4x16 S100x16 [1] [0] [0] [1] [] []
  dot_S100x272_S272x128_S100x128_1_0_0_1_n_n_wf : DotDims.WF S100x272 S272x128 S100x128 [1] [0] [0] [1] [] []
  dot_S100x128_S128x64_S100x64_1_0_0_1_n_n_wf : DotDims.WF S100x128 S128x64 S100x64 [1] [0] [0] [1] [] []
  dot_S100x64_S64x3_S100x3_1_0_0_1_n_n_wf : DotDims.WF S100x64 S64x3 S100x3 [1] [0] [0] [1] [] []

variable [Facts₀]

def gather_S10000x16_S100000x1_S100000x16_1_0_n_n_0_1_116 : GatherDims S10000x16 S100000x1 S100000x16 where
  offsetDims := [1]
  collapsedSliceDims := [0]
  operandBatchingDims := []
  startIndicesBatchingDims := []
  startIndexMap := [0]
  indexVectorDim := 1
  sliceSizes := ![1, 16]
  wf := gather_S10000x16_S100000x1_S100000x16_1_0_n_n_0_1_116_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def scatter_S100x64_S100000x1_S100000x64_1_0_0_1 : ScatterDims S100x64 S100000x1 S100000x64 where
  updateWindowDims := [1]
  insertedWindowDims := [0]
  scatterDimsToOperandDims := [0]
  indexVectorDim := 1
  wf := scatter_S100x64_S100000x1_S100000x64_1_0_0_1_wf
def scatter_S100x1_S100000x1_S100000x1_1_0_0_1 : ScatterDims S100x1 S100000x1 S100000x1 where
  updateWindowDims := [1]
  insertedWindowDims := [0]
  scatterDimsToOperandDims := [0]
  indexVectorDim := 1
  wf := scatter_S100x1_S100000x1_S100000x1_1_0_0_1_wf
def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100x128_S100000x1_S100000x128_1_0_0_1 : ScatterDims S100x128 S100000x1 S100000x128 where
  updateWindowDims := [1]
  insertedWindowDims := [0]
  scatterDimsToOperandDims := [0]
  indexVectorDim := 1
  wf := scatter_S100x128_S100000x1_S100000x128_1_0_0_1_wf
def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100x256_S100000x1_S100000x256_1_0_0_1 : ScatterDims S100x256 S100000x1 S100000x256 where
  updateWindowDims := [1]
  insertedWindowDims := [0]
  scatterDimsToOperandDims := [0]
  indexVectorDim := 1
  wf := scatter_S100x256_S100000x1_S100000x256_1_0_0_1_wf
def dot_S100x4_S4x16_S100x16_1_0_0_1_n_n : DotDims S100x4 S4x16 S100x16 where
  lhsContracting := [1]
  rhsContracting := [0]
  lhsNonContracting := [0]
  rhsNonContracting := [1]
  lhsBatch := []
  rhsBatch := []
  wf := dot_S100x4_S4x16_S100x16_1_0_0_1_n_n_wf
def dot_S100x272_S272x128_S100x128_1_0_0_1_n_n : DotDims S100x272 S272x128 S100x128 where
  lhsContracting := [1]
  rhsContracting := [0]
  lhsNonContracting := [0]
  rhsNonContracting := [1]
  lhsBatch := []
  rhsBatch := []
  wf := dot_S100x272_S272x128_S100x128_1_0_0_1_n_n_wf
def dot_S100x128_S128x64_S100x64_1_0_0_1_n_n : DotDims S100x128 S128x64 S100x64 where
  lhsContracting := [1]
  rhsContracting := [0]
  lhsNonContracting := [0]
  rhsNonContracting := [1]
  lhsBatch := []
  rhsBatch := []
  wf := dot_S100x128_S128x64_S100x64_1_0_0_1_n_n_wf
def dot_S100x64_S64x3_S100x3_1_0_0_1_n_n : DotDims S100x64 S64x3 S100x3 where
  lhsContracting := [1]
  rhsContracting := [0]
  lhsNonContracting := [0]
  rhsNonContracting := [1]
  lhsBatch := []
  rhsBatch := []
  wf := dot_S100x64_S64x3_S100x3_1_0_0_1_n_n_wf

class Facts : Prop extends Facts₀ where

variable [Facts]
-- ==== Proof.RefOps.lean ====
import proofs.«411421_j14293651161727_1_alg».proof.Proof.Gen.ReferenceIdeal
import Idealize.ShloMosaic.Lib.StableHlo.Run
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev rc0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.reshape main_arg2 main_v4 rfl shapeCasts_S1600000x1_S1600000,
    StableHlo.nullary main_c (constantI S_ 32 0#32),
    StableHlo.unary main_c main_v5 (broadcastInDim S100000 ![] bcast_S_S100000 : (⟨S_, .i32⟩ : BufTy).Contents (Elt F) → (⟨S100000, .i32⟩ : BufTy).Contents (Elt F)),
    StableHlo.binary main_arg0 main_v5 main_v6 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 10000#32),
    StableHlo.unary main_c_0 main_v7 (broadcastInDim S100000 ![] bcast_S_S100000 : (⟨S_, .i32⟩ : BufTy).Contents (Elt F) → (⟨S100000, .i32⟩ : BufTy).Contents (Elt F)),
    StableHlo.binary main_arg0 main_v7 main_v8 (addi : (⟨S100000, .i32⟩ : BufTy).Contents (Elt F) → (⟨S100000, .i32⟩ : BufTy).Contents (Elt F) → (⟨S100000, .i32⟩ : BufTy).Contents (Elt F)),
    StableHlo.ternary main_v6 main_v8 main_arg0 main_v9 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v9 main_v10 (broadcastInDim S100000x1 ![0] bcast_S100000_S100000x1_0 : (⟨S100000, .i32⟩ : BufTy).Contents (Elt F) → (⟨S100000x1, .i32⟩ : BufTy).Contents (Elt F)),
    StableHlo.binary main_arg5 main_v10 main_v11 ((fun x i => Host.gather gather_S10000x16_S100000x1_S100000x16_1_0_n_n_0_1_116 x i) : (⟨S10000x16, .f32⟩ : BufTy).Contents (Elt F) → (⟨S100000x1, .i32⟩ : BufTy).Contents (Elt F) → (⟨S100000x16, .f32⟩ : BufTy).Contents (Elt F)),
    StableHlo.nullary main_c_1 (constantI S_ 32 0#32),
    StableHlo.unary main_c_1 main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.unary main_v4 main_v19 (broadcastInDim S1600000x1 ![0] bcast_S1600000_S1600000x1_0 : (⟨S1600000, .f32⟩ : BufTy).Contents (Elt F) → (⟨S1600000x1, .f32⟩ : BufTy).Contents (Elt F)),
    StableHlo.unary main_v19 main_v20 (broadcastInDim S1600000x16 ![0, 1] bcast_S1600000x1_S1600000x16_0_1 : (⟨S1600000x1, .f32⟩ : BufTy).Contents (Elt F) → (⟨S1600000x16, .f32⟩ : BufTy).Contents (Elt F)),
    StableHlo.binary main_v18 main_v20 main_v21 (mulf : (⟨S1600000x16, .f32⟩ : BufTy).Contents (Elt F) → (⟨S1600000x16, .f32⟩ : BufTy).Contents (Elt F) → (⟨S1600000x16, .f32⟩ : BufTy).Contents (Elt F)),
    StableHlo.nullary main_cst (constant S_ .f32 0x00000000#32),
    StableHlo.unary main_cst main_v22 (broadcastInDim S100000x16 ![] bcast_S_S100000x16 : (⟨S_, .f32⟩ : BufTy).Contents (Elt F) → (⟨S100000x16, .f32⟩ : BufTy).Contents (Elt F)),
    StableHlo.unary main_v3 main_v23 (broadcastInDim S1600000x1 ![0] bcast_S1600000_S1600000x1_0 : (⟨S1600000, .i32⟩ : BufTy).Contents (Elt F) → (⟨S1600000x1, .i32⟩ : BufTy).Contents (Elt F)),
    StableHlo.ternary main_v22 main_v23 main_v21 main_v24 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)) ]

abbrev rc1 : List (HloOp τ sig (Elt F)) :=
  [ StableHlo.binary main_v24 main_arg6 main_v25 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    StableHlo.unary main_arg7 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)),
    StableHlo.binary main_v11 main_arg8 main_v29 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    StableHlo.binary main_v28 main_v29 main_v30 (addf : (⟨S100000x64, .f32⟩ : BufTy).Contents (Elt F) → (⟨S100000x64, .f32⟩ : BufTy).Contents (Elt F) → (⟨S100000x64, .f32⟩ : BufTy).Contents (Elt F)) ]

abbrev rc2 : List (HloOp τ sig (Elt F)) :=
  [ StableHlo.nullary main_cst_3 (constant S_ .f32 0x00000000#32),
    StableHlo.unary main_cst_3 main_v31 (broadcastInDim S100x64 ![] bcast_S_S100x64 : (⟨S_, .f32⟩ : BufTy).Contents (Elt F) → (⟨S100x64, .f32⟩ : BufTy).Contents (Elt F)),
    StableHlo.unary main_arg3 main_v32 (broadcastInDim S100000x1 ![0] bcast_S100000_S100000x1_0 : (⟨S100000, .i32⟩ : BufTy).Contents (Elt F) → (⟨S100000x1, .i32⟩ : BufTy).Contents (Elt F)),
    StableHlo.ternary main_v31 main_v32 main_v30 main_v33 ((fun x i u => Host.scatterAdd scatter_S100x64_S100000x1_S100000x64_1_0_0_1 x i u) : (⟨S100x64, .f32⟩ : BufTy).Contents (Elt F) → (⟨S100000x1, .i32⟩ : BufTy).Contents (Elt F) → (⟨S100000x64, .f32⟩ : BufTy).Contents (Elt F) → (⟨S100x64, .f32⟩ : BufTy).Contents (Elt F)),
    StableHlo.nullary main_cst_4 (constant S_ .f32 0x3F800000#32),
    StableHlo.unary main_cst_4 main_v34 (broadcastInDim S100000x1 ![] bcast_S_S100000x1 : (⟨S_, .f32⟩ : BufTy).Contents (Elt F) → (⟨S100000x1, .f32⟩ : BufTy).Contents (Elt F)),
    StableHlo.nullary main_cst_5 (constant S_ .f32 0x00000000#32),
    StableHlo.unary main_cst_5 main_v35 (broadcastInDim S100x1 ![] bcast_S_S100x1 : (⟨S_, .f32⟩ : BufTy).Contents (Elt F) → (⟨S100x1, .f32⟩ : BufTy).Contents (Elt F)),
    StableHlo.unary main_arg3 main_v36 (broadcastInDim S100000x1 ![0] bcast_S100000_S100000x1_0 : (⟨S100000, .i32⟩ : BufTy).Contents (Elt F) → (⟨S100000x1, .i32⟩ : BufTy).Contents (Elt F)),
    StableHlo.ternary main_v35 main_v36 main_v34 main_v37 ((fun x i u => Host.scatterAdd scatter_S100x1_S100000x1_S100000x1_1_0_0_1 x i u) : (⟨S100x1, .f32⟩ : BufTy).Contents (Elt F) → (⟨S100000x1, .i32⟩ : BufTy).Contents (Elt F) → (⟨S100000x1, .f32⟩ : BufTy).Contents (Elt F) → (⟨S100x1, .f32⟩ : BufTy).Contents (Elt F)),
    StableHlo.nullary main_cst_6 (constant S_ .f32 0x3F800000#32),
    StableHlo.unary main_cst_6 main_v38 (broadcastInDim S100x1 ![] bcast_S_S100x1 : (⟨S_, .f32⟩ : BufTy).Contents (Elt F) → (⟨S100x1, .f32⟩ : BufTy).Contents (Elt F)),
    StableHlo.binary main_v37 main_v38 main_v39 (maximumf : (⟨S100x1, .f32⟩ : BufTy).Contents (Elt F) → (⟨S100x1, .f32⟩ : BufTy).Contents (Elt F) → (⟨S100x1, .f32⟩ : BufTy).Contents (Elt F)),
    StableHlo.unary main_v39 main_v40 (broadcastInDim S100x64 ![0, 1] bcast_S100x1_S100x64_0_1 : (⟨S100x1, .f32⟩ : BufTy).Contents (Elt F) → (⟨S100x64, .f32⟩ : BufTy).Contents (Elt F)),
    StableHlo.binary main_v33 main_v40 main_v41 (Host.divf : (⟨S100x64, .f32⟩ : BufTy).Contents (Elt F) → (⟨S100x64, .f32⟩ : BufTy).Contents (Elt F) → (⟨S100x64, .f32⟩ : BufTy).Contents (Elt F)),
    StableHlo.nullary main_c_7 (constantI S_ 32 0#32),
    StableHlo.unary main_c_7 main_v42 (broadcastInDim S100000 ![] bcast_S_S100000 : (⟨S_, .i32⟩ : BufTy).Contents (Elt F) → (⟨S100000, .i32⟩ : BufTy).Contents (Elt F)),
    StableHlo.binary main_arg3 main_v42 main_v43 (cmpi .slt : (⟨S100000, .i32⟩ : BufTy).Contents (Elt F) → (⟨S100000, .i32⟩ : BufTy).Contents (Elt F) → (⟨S100000, .i1⟩ : BufTy).Contents (Elt F)),
    StableHlo.nullary main_c_8 (constantI S_ 32 100#32),
    StableHlo.unary main_c_8 main_v44 (broadcastInDim S100000 ![] bcast_S_S100000 : (⟨S_, .i32⟩ : BufTy).Contents (Elt F) → (⟨S100000, .i32⟩ : BufTy).Contents (Elt F)),
    StableHlo.binary main_arg3 main_v44 main_v45 (addi : (⟨S100000, .i32⟩ : BufTy).Contents (Elt F) → (⟨S100000, .i32⟩ : BufTy).Contents (Elt F) → (⟨S100000, .i32⟩ : BufTy).Contents (Elt F)),
    StableHlo.ternary main_v43 main_v45 main_arg3 main_v46 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v46 main_v47 (broadcastInDim S100000x1 ![0] bcast_S100000_S100000x1_0 : (⟨S100000, .i32⟩ : BufTy).Contents (Elt F) → (⟨S100000x1, .i32⟩ : BufTy).Contents (Elt F)),
    StableHlo.binary main_v41 main_v47 main_v48 ((fun x i => Host.gather gather_S100x64_S100000x1_S100000x64_1_0_n_n_0_1_164 x i) : (⟨S100x64, .f32⟩ : BufTy).Contents (Elt F) → (⟨S100000x1, .i32⟩ : BufTy).Contents (Elt F) → (⟨S100000x64, .f32⟩ : BufTy).Contents (Elt F)),
    StableHlo.unary main_arg17 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v48 main_v51 (mulf : (⟨S100000x64, .f32⟩ : BufTy).Contents (Elt F) → (⟨S100000x64, .f32⟩ : BufTy).Contents (Elt F) → (⟨S100000x64, .f32⟩ : BufTy).Contents (Elt F)),
    StableHlo.binary main_v30 main_v51 main_v52 (subf : (⟨S100000x64, .f32⟩ : BufTy).Contents (Elt F) → (⟨S100000x64, .f32⟩ : BufTy).Contents (Elt F) → (⟨S100000x64, .f32⟩ : BufTy).Contents (Elt F)),
    StableHlo.binary main_v52 main_v52 main_v53 (mulf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x00000000#32),
    StableHlo.unary main_cst_9 main_v54 (broadcastInDim S100x64 ![] bcast_S_S100x64 : (⟨S_, .f32⟩ : BufTy).Contents (Elt F) → (⟨S100x64, .f32⟩ : BufTy).Contents (Elt F)),
    StableHlo.unary main_arg3 main_v55 (broadcastInDim S100000x1 ![0] bcast_S100000_S100000x1_0 : (⟨S100000, .i32⟩ : BufTy).Contents (Elt F) → (⟨S100000x1, .i32⟩ : BufTy).Contents (Elt F)),
    StableHlo.ternary main_v54 main_v55 main_v53 main_v56 ((fun x i u => Host.scatterAdd scatter_S100x64_S100000x1_S100000x64_1_0_0_1 x i u) : (⟨S100x64, .f32⟩ : BufTy).Contents (Elt F) → (⟨S100000x1, .i32⟩ : BufTy).Contents (Elt F) → (⟨S100000x64, .f32⟩ : BufTy).Contents (Elt F) → (⟨S100x64, .f32⟩ : BufTy).Contents (Elt F)),
    StableHlo.nullary main_cst_10 (constant S_ .f32 0x3F800000#32),
    StableHlo.unary main_cst_10 main_v57 (broadcastInDim S100000x1 ![] bcast_S_S100000x1 : (⟨S_, .f32⟩ : BufTy).Contents (Elt F) → (⟨S100000x1, .f32⟩ : BufTy).Contents (Elt F)),
    StableHlo.nullary main_cst_11 (constant S_ .f32 0x00000000#32),
    StableHlo.unary main_cst_11 main_v58 (broadcastInDim S100x1 ![] bcast_S_S100x1 : (⟨S_, .f32⟩ : BufTy).Contents (Elt F) → (⟨S100x1, .f32⟩ : BufTy).Contents (Elt F)),
    StableHlo.unary main_arg3 main_v59 (broadcastInDim S100000x1 ![0] bcast_S100000_S100000x1_0 : (⟨S100000, .i32⟩ : BufTy).Contents (Elt F) → (⟨S100000x1, .i32⟩ : BufTy).Contents (Elt F)),
    StableHlo.ternary main_v58 main_v59 main_v57 main_v60 ((fun x i u => Host.scatterAdd scatter_S100x1_S100000x1_S100000x1_1_0_0_1 x i u) : (⟨S100x1, .f32⟩ : BufTy).Contents (Elt F) → (⟨S100000x1, .i32⟩ : BufTy).Contents (Elt F) → (⟨S100000x1, .f32⟩ : BufTy).Contents (Elt F) → (⟨S100x1, .f32⟩ : BufTy).Contents (Elt F)),
    StableHlo.nullary main_cst_12 (constant S_ .f32 0x3F800000#32),
    StableHlo.unary main_cst_12 main_v61 (broadcastInDim S100x1 ![] bcast_S_S100x1 : (⟨S_, .f32⟩ : BufTy).Contents (Elt F) → (⟨S100x1, .f32⟩ : BufTy).Contents (Elt F)),
    StableHlo.binary main_v60 main_v61 main_v62 (maximumf : (⟨S100x1, .f32⟩ : BufTy).Contents (Elt F) → (⟨S100x1, .f32⟩ : BufTy).Contents (Elt F) → (⟨S100x1, .f32⟩ : BufTy).Contents (Elt F)),
    StableHlo.unary main_v62 main_v63 (broadcastInDim S100x64 ![0, 1] bcast_S100x1_S100x64_0_1 : (⟨S100x1, .f32⟩ : BufTy).Contents (Elt F) → (⟨S100x64, .f32⟩ : BufTy).Contents (Elt F)),
    StableHlo.binary main_v56 main_v63 main_v64 (Host.divf : (⟨S100x64, .f32⟩ : BufTy).Contents (Elt F) → (⟨S100x64, .f32⟩ : BufTy).Contents (Elt F) → (⟨S100x64, .f32⟩ : BufTy).Contents (Elt F)) ]

abbrev rc3 : List (HloOp τ sig (Elt F)) :=
  [ StableHlo.unary main_arg15 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v52 main_v67 (mulf : (⟨S100000x64, .f32⟩ : BufTy).Contents (Elt F) → (⟨S100000x64, .f32⟩ : BufTy).Contents (Elt F) → (⟨S100000x64, .f32⟩ : BufTy).Contents (Elt F)),
    StableHlo.nullary main_c_13 (constantI S_ 32 0#32),
    StableHlo.unary main_c_13 main_v68 (broadcastInDim S100000 ![] bcast_S_S100000 : (⟨S_, .i32⟩ : BufTy).Contents (Elt F) → (⟨S100000, .i32⟩ : BufTy).Contents (Elt F)),
    StableHlo.binary main_arg3 main_v68 main_v69 (cmpi .slt : (⟨S100000, .i32⟩ : BufTy).Contents (Elt F) → (⟨S100000, .i32⟩ : BufTy).Contents (Elt F) → (⟨S100000, .i1⟩ : BufTy).Contents (Elt F)),
    StableHlo.nullary main_c_14 (constantI S_ 32 100#32),
    StableHlo.unary main_c_14 main_v70 (broadcastInDim S100000 ![] bcast_S_S100000 : (⟨S_, .i32⟩ : BufTy).Contents (Elt F) → (⟨S100000, .i32⟩ : BufTy).Contents (Elt F)),
    StableHlo.binary main_arg3 main_v70 main_v71 (addi : (⟨S100000, .i32⟩ : BufTy).Contents (Elt F) → (⟨S100000, .i32⟩ : BufTy).Contents (Elt F) → (⟨S100000, .i32⟩ : BufTy).Contents (Elt F)),
    StableHlo.ternary main_v69 main_v71 main_arg3 main_v72 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v72 main_v73 (broadcastInDim S100000x1 ![0] bcast_S100000_S100000x1_0 : (⟨S100000, .i32⟩ : BufTy).Contents (Elt F) → (⟨S100000x1, .i32⟩ : BufTy).Contents (Elt F)),
    StableHlo.binary main_v64 main_v73 main_v74 ((fun x i => Host.gather gather_S100x64_S100000x1_S100000x64_1_0_n_n_0_1_164 x i) : (⟨S100x64, .f32⟩ : BufTy).Contents (Elt F) → (⟨S100000x1, .i32⟩ : BufTy).Contents (Elt F) → (⟨S100000x64, .f32⟩ : BufTy).Contents (Elt F)),
    StableHlo.nullary main_cst_15 (constant S_ .f32 0x3727C5AC#32),
    StableHlo.unary main_cst_15 main_v75 (broadcastInDim S100000x64 ![] bcast_S_S100000x64 : (⟨S_, .f32⟩ : BufTy).Contents (Elt F) → (⟨S100000x64, .f32⟩ : BufTy).Contents (Elt F)),
    StableHlo.binary main_v74 main_v75 main_v76 (addf : (⟨S100000x64, .f32⟩ : BufTy).Contents (Elt F) → (⟨S100000x64, .f32⟩ : BufTy).Contents (Elt F) → (⟨S100000x64, .f32⟩ : BufTy).Contents (Elt F)),
    StableHlo.unary main_v76 main_v77 (Host.sqrt : (⟨S100000x64, .f32⟩ : BufTy).Contents (Elt F) → (⟨S100000x64, .f32⟩ : BufTy).Contents (Elt F)),
    StableHlo.binary main_v67 main_v77 main_v78 (Host.divf : (⟨S100000x64, .f32⟩ : BufTy).Contents (Elt F) → (⟨S100000x64, .f32⟩ : BufTy).Contents (Elt F) → (⟨S100000x64, .f32⟩ : BufTy).Contents (Elt F)),
    StableHlo.unary main_arg16 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)),
    StableHlo.nullary main_cst_16 (constant S_ .f32 0x00000000#32),
    StableHlo.unary main_cst_16 main_v82 (broadcastInDim S100000x64 ![] bcast_S_S100000x64 : (⟨S_, .f32⟩ : BufTy).Contents (Elt F) → (⟨S100000x64, .f32⟩ : BufTy).Contents (Elt F)),
    StableHlo.binary main_v81 main_v82 main_v83 (cmpf .ogt : (⟨S100000x64, .f32⟩ : BufTy).Contents (Elt F) → (⟨S100000x64, .f32⟩ : BufTy).Contents (Elt F) → (⟨S100000x64, .i1⟩ : BufTy).Contents (Elt F)),
    StableHlo.nullary main_cst_17 (constant S_ .f32 0x3C23D70A#32),
    StableHlo.unary main_cst_17 main_v84 (broadcastInDim S100000x64 ![] bcast_S_S100000x64 : (⟨S_, .f32⟩ : BufTy).Contents (Elt F) → (⟨S100000x64, .f32⟩ : BufTy).Contents (Elt F)),
    StableHlo.binary main_v84 main_v81 main_v85 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v83) (.of main_v81) (.of main_v85) main_call0.v0 select ]

abbrev rc4 : List (HloOp τ sig (Elt F)) :=
  [ StableHlo.nullary main_c_18 (constantI S_ 32 0#32),
    StableHlo.unary main_c_18 main_v87 (broadcastInDim S1600000 ![] bcast_S_S1600000 : (⟨S_, .i32⟩ : BufTy).Contents (Elt F) → (⟨S1600000, .i32⟩ : BufTy).Contents (Elt F)),
    StableHlo.binary main_v1 main_v87 main_v88 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v89 (broadcastInDim S1600000 ![] bcast_S_S1600000 : (⟨S_, .i32⟩ : BufTy).Contents (Elt F) → (⟨S1600000, .i32⟩ : BufTy).Contents (Elt F)),
    StableHlo.binary main_v1 main_v89 main_v90 (addi : (⟨S1600000, .i32⟩ : BufTy).Contents (Elt F) → (⟨S1600000, .i32⟩ : BufTy).Contents (Elt F) → (⟨S1600000, .i32⟩ : BufTy).Contents (Elt F)),
    StableHlo.ternary main_v88 main_v90 main_v1 main_v91 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v91 main_v92 (broadcastInDim S1600000x1 ![0] bcast_S1600000_S1600000x1_0 : (⟨S1600000, .i32⟩ : BufTy).Contents (Elt F) → (⟨S1600000x1, .i32⟩ : BufTy).Contents (Elt F)),
    StableHlo.binary main_v86 main_v92 main_v93 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v4 main_v94 (broadcastInDim S1600000x1 ![0] bcast_S1600000_S1600000x1_0 : (⟨S1600000, .f32⟩ : BufTy).Contents (Elt F) → (⟨S1600000x1, .f32⟩ : BufTy).Contents (Elt F)),
    StableHlo.unary main_v94 main_v95 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v93 main_v95 main_v96 (mulf : (⟨S1600000x64, .f32⟩ : BufTy).Contents (Elt F) → (⟨S1600000x64, .f32⟩ : BufTy).Contents (Elt F) → (⟨S1600000x64, .f32⟩ : BufTy).Contents (Elt F)),
    StableHlo.nullary main_cst_20 (constant S_ .f32 0x00000000#32),
    StableHlo.unary main_cst_20 main_v97 (broadcastInDim S100000x64 ![] bcast_S_S100000x64 : (⟨S_, .f32⟩ : BufTy).Contents (Elt F) → (⟨S100000x64, .f32⟩ : BufTy).Contents (Elt F)),
    StableHlo.unary main_v3 main_v98 (broadcastInDim S1600000x1 ![0] bcast_S1600000_S1600000x1_0 : (⟨S1600000, .i32⟩ : BufTy).Contents (Elt F) → (⟨S1600000x1, .i32⟩ : BufTy).Contents (Elt F)),
    StableHlo.ternary main_v97 main_v98 main_v96 main_v99 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

abbrev rc5 : List (HloOp τ sig (Elt F)) :=
  [ StableHlo.binary main_v99 main_arg9 main_v100 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg10 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)),
    StableHlo.binary main_v86 main_arg11 main_v104 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v103 main_v104 main_v105 (addf : (⟨S100000x128, .f32⟩ : BufTy).Contents (Elt F) → (⟨S100000x128, .f32⟩ : BufTy).Contents (Elt F) → (⟨S100000x128, .f32⟩ : BufTy).Contents (Elt F)) ]

abbrev rc6 : List (HloOp τ sig (Elt F)) :=
  [ StableHlo.nullary main_cst_21 (constant S_ .f32 0x00000000#32),
    StableHlo.unary main_cst_21 main_v106 (broadcastInDim S100x128 ![] bcast_S_S100x128 : (⟨S_, .f32⟩ : BufTy).Contents (Elt F) → (⟨S100x128, .f32⟩ : BufTy).Contents (Elt F)),
    StableHlo.unary main_arg3 main_v107 (broadcastInDim S100000x1 ![0] bcast_S100000_S100000x1_0 : (⟨S100000, .i32⟩ : BufTy).Contents (Elt F) → (⟨S100000x1, .i32⟩ : BufTy).Contents (Elt F)),
    StableHlo.ternary main_v106 main_v107 main_v105 main_v108 ((fun x i u => Host.scatterAdd scatter_S100x128_S100000x1_S100000x128_1_0_0_1 x i u) : (⟨S100x128, .f32⟩ : BufTy).Contents (Elt F) → (⟨S100000x1, .i32⟩ : BufTy).Contents (Elt F) → (⟨S100000x128, .f32⟩ : BufTy).Contents (Elt F) → (⟨S100x128, .f32⟩ : BufTy).Contents (Elt F)),
    StableHlo.nullary main_cst_22 (constant S_ .f32 0x3F800000#32),
    StableHlo.unary main_cst_22 main_v109 (broadcastInDim S100000x1 ![] bcast_S_S100000x1 : (⟨S_, .f32⟩ : BufTy).Contents (Elt F) → (⟨S100000x1, .f32⟩ : BufTy).Contents (Elt F)),
    StableHlo.nullary main_cst_23 (constant S_ .f32 0x00000000#32),
    StableHlo.unary main_cst_23 main_v110 (broadcastInDim S100x1 ![] bcast_S_S100x1 : (⟨S_, .f32⟩ : BufTy).Contents (Elt F) → (⟨S100x1, .f32⟩ : BufTy).Contents (Elt F)),
    StableHlo.unary main_arg3 main_v111 (broadcastInDim S100000x1 ![0] bcast_S100000_S100000x1_0 : (⟨S100000, .i32⟩ : BufTy).Contents (Elt F) → (⟨S100000x1, .i32⟩ : BufTy).Contents (Elt F)),
    StableHlo.ternary main_v110 main_v111 main_v109 main_v112 ((fun x i u => Host.scatterAdd scatter_S100x1_S100000x1_S100000x1_1_0_0_1 x i u) : (⟨S100x1, .f32⟩ : BufTy).Contents (Elt F) → (⟨S100000x1, .i32⟩ : BufTy).Contents (Elt F) → (⟨S100000x1, .f32⟩ : BufTy).Contents (Elt F) → (⟨S100x1, .f32⟩ : BufTy).Contents (Elt F)),
    StableHlo.nullary main_cst_24 (constant S_ .f32 0x3F800000#32),
    StableHlo.unary main_cst_24 main_v113 (broadcastInDim S100x1 ![] bcast_S_S100x1 : (⟨S_, .f32⟩ : BufTy).Contents (Elt F) → (⟨S100x1, .f32⟩ : BufTy).Contents (Elt F)),
    StableHlo.binary main_v112 main_v113 main_v114 (maximumf : (⟨S100x1, .f32⟩ : BufTy).Contents (Elt F) → (⟨S100x1, .f32⟩ : BufTy).Contents (Elt F) → (⟨S100x1, .f32⟩ : BufTy).Contents (Elt F)),
    StableHlo.unary main_v114 main_v115 (broadcastInDim S100x128 ![0, 1] bcast_S100x1_S100x128_0_1 : (⟨S100x1, .f32⟩ : BufTy).Contents (Elt F) → (⟨S100x128, .f32⟩ : BufTy).Contents (Elt F)),
    StableHlo.binary main_v108 main_v115 main_v116 (Host.divf : (⟨S100x128, .f32⟩ : BufTy).Contents (Elt F) → (⟨S100x128, .f32⟩ : BufTy).Contents (Elt F) → (⟨S100x128, .f32⟩ : BufTy).Contents (Elt F)),
    StableHlo.nullary main_c_25 (constantI S_ 32 0#32),
    StableHlo.unary main_c_25 main_v117 (broadcastInDim S100000 ![] bcast_S_S100000 : (⟨S_, .i32⟩ : BufTy).Contents (Elt F) → (⟨S100000, .i32⟩ : BufTy).Contents (Elt F)),
    StableHlo.binary main_arg3 main_v117 main_v118 (cmpi .slt : (⟨S100000, .i32⟩ : BufTy).Contents (Elt F) → (⟨S100000, .i32⟩ : BufTy).Contents (Elt F) → (⟨S100000, .i1⟩ : BufTy).Contents (Elt F)),
    StableHlo.nullary main_c_26 (constantI S_ 32 100#32),
    StableHlo.unary main_c_26 main_v119 (broadcastInDim S100000 ![] bcast_S_S100000 : (⟨S_, .i32⟩ : BufTy).Contents (Elt F) → (⟨S100000, .i32⟩ : BufTy).Contents (Elt F)),
    StableHlo.binary main_arg3 main_v119 main_v120 (addi : (⟨S100000, .i32⟩ : BufTy).Contents (Elt F) → (⟨S100000, .i32⟩ : BufTy).Contents (Elt F) → (⟨S100000, .i32⟩ : BufTy).Contents (Elt F)),
    StableHlo.ternary main_v118 main_v120 main_arg3 main_v121 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v121 main_v122 (broadcastInDim S100000x1 ![0] bcast_S100000_S100000x1_0 : (⟨S100000, .i32⟩ : BufTy).Contents (Elt F) → (⟨S100000x1, .i32⟩ : BufTy).Contents (Elt F)),
    StableHlo.binary main_v116 main_v122 main_v123 ((fun x i => Host.gather gather_S100x128_S100000x1_S100000x128_1_0_n_n_0_1_1128 x i) : (⟨S100x128, .f32⟩ : BufTy).Contents (Elt F) → (⟨S100000x1, .i32⟩ : BufTy).Contents (Elt F) → (⟨S100000x128, .f32⟩ : BufTy).Contents (Elt F)),
    StableHlo.unary main_arg20 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v123 main_v126 (mulf : (⟨S100000x128, .f32⟩ : BufTy).Contents (Elt F) → (⟨S100000x128, .f32⟩ : BufTy).Contents (Elt F) → (⟨S100000x128, .f32⟩ : BufTy).Contents (Elt F)),
    StableHlo.binary main_v105 main_v126 main_v127 (subf : (⟨S100000x128, .f32⟩ : BufTy).Contents (Elt F) → (⟨S100000x128, .f32⟩ : BufTy).Contents (Elt F) → (⟨S100000x128, .f32⟩ : BufTy).Contents (Elt F)),
    StableHlo.binary main_v127 main_v127 main_v128 (mulf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x00000000#32),
    StableHlo.unary main_cst_27 main_v129 (broadcastInDim S100x128 ![] bcast_S_S100x128 : (⟨S_, .f32⟩ : BufTy).Contents (Elt F) → (⟨S100x128, .f32⟩ : BufTy).Contents (Elt F)),
    StableHlo.unary main_arg3 main_v130 (broadcastInDim S100000x1 ![0] bcast_S100000_S100000x1_0 : (⟨S100000, .i32⟩ : BufTy).Contents (Elt F) → (⟨S100000x1, .i32⟩ : BufTy).Contents (Elt F)),
    StableHlo.ternary main_v129 main_v130 main_v128 main_v131 ((fun x i u => Host.scatterAdd scatter_S100x128_S100000x1_S100000x128_1_0_0_1 x i u) : (⟨S100x128, .f32⟩ : BufTy).Contents (Elt F) → (⟨S100000x1, .i32⟩ : BufTy).Contents (Elt F) → (⟨S100000x128, .f32⟩ : BufTy).Contents (Elt F) → (⟨S100x128, .f32⟩ : BufTy).Contents (Elt F)),
    StableHlo.nullary main_cst_28 (constant S_ .f32 0x3F800000#32),
    StableHlo.unary main_cst_28 main_v132 (broadcastInDim S100000x1 ![] bcast_S_S100000x1 : (⟨S_, .f32⟩ : BufTy).Contents (Elt F) → (⟨S100000x1, .f32⟩ : BufTy).Contents (Elt F)),
    StableHlo.nullary main_cst_29 (constant S_ .f32 0x00000000#32),
    StableHlo.unary main_cst_29 main_v133 (broadcastInDim S100x1 ![] bcast_S_S100x1 : (⟨S_, .f32⟩ : BufTy).Contents (Elt F) → (⟨S100x1, .f32⟩ : BufTy).Contents (Elt F)),
    StableHlo.unary main_arg3 main_v134 (broadcastInDim S100000x1 ![0] bcast_S100000_S100000x1_0 : (⟨S100000, .i32⟩ : BufTy).Contents (Elt F) → (⟨S100000x1, .i32⟩ : BufTy).Contents (Elt F)),
    StableHlo.ternary main_v133 main_v134 main_v132 main_v135 ((fun x i u => Host.scatterAdd scatter_S100x1_S100000x1_S100000x1_1_0_0_1 x i u) : (⟨S100x1, .f32⟩ : BufTy).Contents (Elt F) → (⟨S100000x1, .i32⟩ : BufTy).Contents (Elt F) → (⟨S100000x1, .f32⟩ : BufTy).Contents (Elt F) → (⟨S100x1, .f32⟩ : BufTy).Contents (Elt F)),
    StableHlo.nullary main_cst_30 (constant S_ .f32 0x3F800000#32),
    StableHlo.unary main_cst_30 main_v136 (broadcastInDim S100x1 ![] bcast_S_S100x1 : (⟨S_, .f32⟩ : BufTy).Contents (Elt F) → (⟨S100x1, .f32⟩ : BufTy).Contents (Elt F)),
    StableHlo.binary main_v135 main_v136 main_v137 (maximumf : (⟨S100x1, .f32⟩ : BufTy).Contents (Elt F) → (⟨S100x1, .f32⟩ : BufTy).Contents (Elt F) → (⟨S100x1, .f32⟩ : BufTy).Contents (Elt F)),
    StableHlo.unary main_v137 main_v138 (broadcastInDim S100x128 ![0, 1] bcast_S100x1_S100x128_0_1 : (⟨S100x1, .f32⟩ : BufTy).Contents (Elt F) → (⟨S100x128, .f32⟩ : BufTy).Contents (Elt F)),
    StableHlo.binary main_v131 main_v138 main_v139 (Host.divf : (⟨S100x128, .f32⟩ : BufTy).Contents (Elt F) → (⟨S100x128, .f32⟩ : BufTy).Contents (Elt F) → (⟨S100x128, .f32⟩ : BufTy).Contents (Elt F)) ]

abbrev rc7 : List (HloOp τ sig (Elt F)) :=
  [ StableHlo.unary main_arg18 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v141 main_v127 main_v142 (mulf : (⟨S100000x128, .f32⟩ : BufTy).Contents (Elt F) → (⟨S100000x128, .f32⟩ : BufTy).Contents (Elt F) → (⟨S100000x128, .f32⟩ : BufTy).Contents (Elt F)),
    StableHlo.nullary main_c_31 (constantI S_ 32 0#32),
    StableHlo.unary main_c_31 main_v143 (broadcastInDim S100000 ![] bcast_S_S100000 : (⟨S_, .i32⟩ : BufTy).Contents (Elt F) → (⟨S100000, .i32⟩ : BufTy).Contents (Elt F)),
    StableHlo.binary main_arg3 main_v143 main_v144 (cmpi .slt : (⟨S100000, .i32⟩ : BufTy).Contents (Elt F) → (⟨S100000, .i32⟩ : BufTy).Contents (Elt F) → (⟨S100000, .i1⟩ : BufTy).Contents (Elt F)),
    StableHlo.nullary main_c_32 (constantI S_ 32 100#32),
    StableHlo.unary main_c_32 main_v145 (broadcastInDim S100000 ![] bcast_S_S100000 : (⟨S_, .i32⟩ : BufTy).Contents (Elt F) → (⟨S100000, .i32⟩ : BufTy).Contents (Elt F)),
    StableHlo.binary main_arg3 main_v145 main_v146 (addi : (⟨S100000, .i32⟩ : BufTy).Contents (Elt F) → (⟨S100000, .i32⟩ : BufTy).Contents (Elt F) → (⟨S100000, .i32⟩ : BufTy).Contents (Elt F)),
    StableHlo.ternary main_v144 main_v146 main_arg3 main_v147 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v147 main_v148 (broadcastInDim S100000x1 ![0] bcast_S100000_S100000x1_0 : (⟨S100000, .i32⟩ : BufTy).Contents (Elt F) → (⟨S100000x1, .i32⟩ : BufTy).Contents (Elt F)),
    StableHlo.binary main_v139 main_v148 main_v149 ((fun x i => Host.gather gather_S100x128_S100000x1_S100000x128_1_0_n_n_0_1_1128 x i) : (⟨S100x128, .f32⟩ : BufTy).Contents (Elt F) → (⟨S100000x1, .i32⟩ : BufTy).Contents (Elt F) → (⟨S100000x128, .f32⟩ : BufTy).Contents (Elt F)),
    StableHlo.nullary main_cst_33 (constant S_ .f32 0x3727C5AC#32),
    StableHlo.unary main_cst_33 main_v150 (broadcastInDim S100000x128 ![] bcast_S_S100000x128 : (⟨S_, .f32⟩ : BufTy).Contents (Elt F) → (⟨S100000x128, .f32⟩ : BufTy).Contents (Elt F)),
    StableHlo.binary main_v149 main_v150 main_v151 (addf : (⟨S100000x128, .f32⟩ : BufTy).Contents (Elt F) → (⟨S100000x128, .f32⟩ : BufTy).Contents (Elt F) → (⟨S100000x128, .f32⟩ : BufTy).Contents (Elt F)),
    StableHlo.unary main_v151 main_v152 (Host.sqrt : (⟨S100000x128, .f32⟩ : BufTy).Contents (Elt F) → (⟨S100000x128, .f32⟩ : BufTy).Contents (Elt F)),
    StableHlo.binary main_v142 main_v152 main_v153 (Host.divf : (⟨S100000x128, .f32⟩ : BufTy).Contents (Elt F) → (⟨S100000x128, .f32⟩ : BufTy).Contents (Elt F) → (⟨S100000x128, .f32⟩ : BufTy).Contents (Elt F)),
    StableHlo.unary main_arg19 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v153 main_v155 main_v156 (addf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x00000000#32),
    StableHlo.unary main_cst_34 main_v157 (broadcastInDim S100000x128 ![] bcast_S_S100000x128 : (⟨S_, .f32⟩ : BufTy).Contents (Elt F) → (⟨S100000x128, .f32⟩ : BufTy).Contents (Elt F)),
    StableHlo.binary main_v156 main_v157 main_v158 (cmpf .ogt : (⟨S100000x128, .f32⟩ : BufTy).Contents (Elt F) → (⟨S100000x128, .f32⟩ : BufTy).Contents (Elt F) → (⟨S100000x128, .i1⟩ : BufTy).Contents (Elt F)),
    StableHlo.nullary main_cst_35 (constant S_ .f32 0x3C23D70A#32),
    StableHlo.unary main_cst_35 main_v159 (broadcastInDim S100000x128 ![] bcast_S_S100000x128 : (⟨S_, .f32⟩ : BufTy).Contents (Elt F) → (⟨S100000x128, .f32⟩ : BufTy).Contents (Elt F)),
    StableHlo.binary main_v159 main_v156 main_v160 (mulf : (⟨S100000x128, .f32⟩ : BufTy).Contents (Elt F) → (⟨S100000x128, .f32⟩ : BufTy).Contents (Elt F) → (⟨S100000x128, .f32⟩ : BufTy).Contents (Elt F)),
    StableHlo.TRef.ternary (.of main_v158) (.of main_v156) (.of main_v160) main_call1.v0 select ]

abbrev rc8 : List (HloOp τ sig (Elt F)) :=
  [ StableHlo.nullary main_c_36 (constantI S_ 32 0#32),
    StableHlo.unary main_c_36 main_v162 (broadcastInDim S1600000 ![] bcast_S_S1600000 : (⟨S_, .i32⟩ : BufTy).Contents (Elt F) → (⟨S1600000, .i32⟩ : BufTy).Contents (Elt F)),
    StableHlo.binary main_v1 main_v162 main_v163 (cmpi .slt : (⟨S1600000, .i32⟩ : BufTy).Contents (Elt F) → (⟨S1600000, .i32⟩ : BufTy).Contents (Elt F) → (⟨S1600000, .i1⟩ : BufTy).Contents (Elt F)),
    StableHlo.nullary main_c_37 (constantI S_ 32 100000#32),
    StableHlo.unary main_c_37 main_v164 (broadcastInDim S1600000 ![] bcast_S_S1600000 : (⟨S_, .i32⟩ : BufTy).Contents (Elt F) → (⟨S1600000, .i32⟩ : BufTy).Contents (Elt F)),
    StableHlo.binary main_v1 main_v164 main_v165 (addi : (⟨S1600000, .i32⟩ : BufTy).Contents (Elt F) → (⟨S1600000, .i32⟩ : BufTy).Contents (Elt F) → (⟨S1600000, .i32⟩ : BufTy).Contents (Elt F)),
    StableHlo.ternary main_v163 main_v165 main_v1 main_v166 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v166 main_v167 (broadcastInDim S1600000x1 ![0] bcast_S1600000_S1600000x1_0 : (⟨S1600000, .i32⟩ : BufTy).Contents (Elt F) → (⟨S1600000x1, .i32⟩ : BufTy).Contents (Elt F)),
    StableHlo.binary main_v161 main_v167 main_v168 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v4 main_v169 (broadcastInDim S1600000x1 ![0] bcast_S1600000_S1600000x1_0 : (⟨S1600000, .f32⟩ : BufTy).Contents (Elt F) → (⟨S1600000x1, .f32⟩ : BufTy).Contents (Elt F)),
    StableHlo.unary main_v169 main_v170 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v168 main_v170 main_v171 (mulf : (⟨S1600000x128, .f32⟩ : BufTy).Contents (Elt F) → (⟨S1600000x128, .f32⟩ : BufTy).Contents (Elt F) → (⟨S1600000x128, .f32⟩ : BufTy).Contents (Elt F)),
    StableHlo.nullary main_cst_38 (constant S_ .f32 0x00000000#32),
    StableHlo.unary main_cst_38 main_v172 (broadcastInDim S100000x128 ![] bcast_S_S100000x128 : (⟨S_, .f32⟩ : BufTy).Contents (Elt F) → (⟨S100000x128, .f32⟩ : BufTy).Contents (Elt F)),
    StableHlo.unary main_v3 main_v173 (broadcastInDim S1600000x1 ![0] bcast_S1600000_S1600000x1_0 : (⟨S1600000, .i32⟩ : BufTy).Contents (Elt F) → (⟨S1600000x1, .i32⟩ : BufTy).Contents (Elt F)),
    StableHlo.ternary main_v172 main_v173 main_v171 main_v174 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

abbrev rc9 : List (HloOp τ sig (Elt F)) :=
  [ StableHlo.binary main_v174 main_arg12 main_v175 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg13 main_v176 (broadcastInDim S1x256 ![1] bcast_S256_S1x256_1 : (⟨S256, .f32⟩ : BufTy).Contents (Elt F) → (⟨S1x256, .f32⟩ : BufTy).Contents (Elt F)),
    StableHlo.unary main_v176 main_v177 (broadcastInDim S100000x256 ![0, 1] bcast_S1x256_S100000x256_0_1 : (⟨S1x256, .f32⟩ : BufTy).Contents (Elt F) → (⟨S100000x256, .f32⟩ : BufTy).Contents (Elt F)),
    StableHlo.binary main_v175 main_v177 main_v178 (addf : (⟨S100000x256, .f32⟩ : BufTy).Contents (Elt F) → (⟨S100000x256, .f32⟩ : BufTy).Contents (Elt F) → (⟨S100000x256, .f32⟩ : BufTy).Contents (Elt F)),
    StableHlo.binary main_v161 main_arg14 main_v179 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.binary main_v178 main_v179 main_v180 (addf : (⟨S100000x256, .f32⟩ : BufTy).Contents (Elt F) → (⟨S100000x256, .f32⟩ : BufTy).Contents (Elt F) → (⟨S100000x256, .f32⟩ : BufTy).Contents (Elt F)) ]

abbrev r0 : List (HloOp τ sig (Elt F)) :=
  [ StableHlo.nullary main_cst_39 (constant S_ .f32 0x00000000#32),
    StableHlo.unary main_cst_39 main_v181 (broadcastInDim S100x256 ![] bcast_S_S100x256 : (⟨S_, .f32⟩ : BufTy).Contents (Elt F) → (⟨S100x256, .f32⟩ : BufTy).Contents (Elt F)),
    StableHlo.unary main_arg3 main_v182 (broadcastInDim S100000x1 ![0] bcast_S100000_S100000x1_0 : (⟨S100000, .i32⟩ : BufTy).Contents (Elt F) → (⟨S100000x1, .i32⟩ : BufTy).Contents (Elt F)),
    StableHlo.ternary main_v181 main_v182 main_v180 main_v183 ((fun x i u => Host.scatterAdd scatter_S100x256_S100000x1_S100000x256_1_0_0_1 x i u) : (⟨S100x256, .f32⟩ : BufTy).Contents (Elt F) → (⟨S100000x1, .i32⟩ : BufTy).Contents (Elt F) → (⟨S100000x256, .f32⟩ : BufTy).Contents (Elt F) → (⟨S100x256, .f32⟩ : BufTy).Contents (Elt F)),
    StableHlo.nullary main_cst_40 (constant S_ .f32 0x3F800000#32),
    StableHlo.unary main_cst_40 main_v184 (broadcastInDim S100000x1 ![] bcast_S_S100000x1 : (⟨S_, .f32⟩ : BufTy).Contents (Elt F) → (⟨S100000x1, .f32⟩ : BufTy).Contents (Elt F)),
    StableHlo.nullary main_cst_41 (constant S_ .f32 0x00000000#32),
    StableHlo.unary main_cst_41 main_v185 (broadcastInDim S100x1 ![] bcast_S_S100x1 : (⟨S_, .f32⟩ : BufTy).Contents (Elt F) → (⟨S100x1, .f32⟩ : BufTy).Contents (Elt F)),
    StableHlo.unary main_arg3 main_v186 (broadcastInDim S100000x1 ![0] bcast_S100000_S100000x1_0 : (⟨S100000, .i32⟩ : BufTy).Contents (Elt F) → (⟨S100000x1, .i32⟩ : BufTy).Contents (Elt F)),
    StableHlo.ternary main_v185 main_v186 main_v184 main_v187 ((fun x i u => Host.scatterAdd scatter_S100x1_S100000x1_S100000x1_1_0_0_1 x i u) : (⟨S100x1, .f32⟩ : BufTy).Contents (Elt F) → (⟨S100000x1, .i32⟩ : BufTy).Contents (Elt F) → (⟨S100000x1, .f32⟩ : BufTy).Contents (Elt F) → (⟨S100x1, .f32⟩ : BufTy).Contents (Elt F)),
    StableHlo.nullary main_cst_42 (constant S_ .f32 0x3F800000#32),
    StableHlo.unary main_cst_42 main_v188 (broadcastInDim S100x1 ![] bcast_S_S100x1 : (⟨S_, .f32⟩ : BufTy).Contents (Elt F) → (⟨S100x1, .f32⟩ : BufTy).Contents (Elt F)),
    StableHlo.binary main_v187 main_v188 main_v189 (maximumf : (⟨S100x1, .f32⟩ : BufTy).Contents (Elt F) → (⟨S100x1, .f32⟩ : BufTy).Contents (Elt F) → (⟨S100x1, .f32⟩ : BufTy).Contents (Elt F)),
    StableHlo.unary main_v189 main_v190 (broadcastInDim S100x256 ![0, 1] bcast_S100x1_S100x256_0_1 : (⟨S100x1, .f32⟩ : BufTy).Contents (Elt F) → (⟨S100x256, .f32⟩ : BufTy).Contents (Elt F)),
    StableHlo.binary main_v183 main_v190 main_v191 (Host.divf : (⟨S100x256, .f32⟩ : BufTy).Contents (Elt F) → (⟨S100x256, .f32⟩ : BufTy).Contents (Elt F) → (⟨S100x256, .f32⟩ : BufTy).Contents (Elt F)),
    StableHlo.binary main_arg4 main_arg21 main_v192 ((fun l r => Host.dotGeneral dot_S100x4_S4x16_S100x16_1_0_0_1_n_n none l r) : (⟨S100x4, .f32⟩ : BufTy).Contents (Elt F) → (⟨S4x16, .f32⟩ : BufTy).Contents (Elt F) → (⟨S100x16, .f32⟩ : BufTy).Contents (Elt F)),
    StableHlo.unary main_arg22 main_v193 (broadcastInDim S1x16 ![1] bcast_S16_S1x16_1 : (⟨S16, .f32⟩ : BufTy).Contents (Elt F) → (⟨S1x16, .f32⟩ : BufTy).Contents (Elt F)),
    StableHlo.unary main_v193 main_v194 (broadcastInDim S100x16 ![0, 1] bcast_S1x16_S100x16_0_1 : (⟨S1x16, .f32⟩ : BufTy).Contents (Elt F) → (⟨S100x16, .f32⟩ : BufTy).Contents (Elt F)),
    StableHlo.binary main_v192 main_v194 main_v195 (addf : (⟨S100x16, .f32⟩ : BufTy).Contents (Elt F) → (⟨S100x16, .f32⟩ : BufTy).Contents (Elt F) → (⟨S100x16, .f32⟩ : BufTy).Contents (Elt F)),
    StableHlo.binary main_v191 main_v195 main_v196 ((fun a b => concatenate S100x272 1 [⟨S100x256, a⟩, ⟨S100x16, b⟩] concatenates_S100x256_S100x16_S100x272_d1) : (⟨S100x256, .f32⟩ : BufTy).Contents (Elt F) → (⟨S100x16, .f32⟩ : BufTy).Contents (Elt F) → (⟨S100x272, .f32⟩ : BufTy).Contents (Elt F)),
    StableHlo.binary main_v196 main_arg23 main_v197 ((fun l r => Host.dotGeneral dot_S100x272_S272x128_S100x128_1_0_0_1_n_n none l r) : (⟨S100x272, .f32⟩ : BufTy).Contents (Elt F) → (⟨S272x128, .f32⟩ : BufTy).Contents (Elt F) → (⟨S100x128, .f32⟩ : BufTy).Contents (Elt F)),
    StableHlo.unary main_arg24 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S100x128 ![0, 1] bcast_S1x128_S100x128_0_1 : (⟨S1x128, .f32⟩ : BufTy).Contents (Elt F) → (⟨S100x128, .f32⟩ : BufTy).Contents (Elt F)),
    StableHlo.binary main_v197 main_v199 main_v200 (addf : (⟨S100x128, .f32⟩ : BufTy).Contents (Elt F) → (⟨S100x128, .f32⟩ : BufTy).Contents (Elt F) → (⟨S100x128, .f32⟩ : BufTy).Contents (Elt F)),
    StableHlo.nullary main_cst_43 (constant S_ .f32 0x00000000#32),
    StableHlo.binary main_v200 main_cst_43 main_v201 ((fun x v => Host.reduceAdd x v reducesTo_S100x128_S128_d0 h_S_) : (⟨S100x128, .f32⟩ : BufTy).Contents (Elt F) → (⟨S_, .f32⟩ : BufTy).Contents (Elt F) → (⟨S128, .f32⟩ : BufTy).Contents (Elt F)),
    StableHlo.nullary main_cst_44 (constant S_ .f32 0x42C80000#32),
    StableHlo.unary main_cst_44 main_v202 (broadcastInDim S128 ![] bcast_S_S128 : (⟨S_, .f32⟩ : BufTy).Contents (Elt F) → (⟨S128, .f32⟩ : BufTy).Contents (Elt F)),
    StableHlo.binary main_v201 main_v202 main_v203 (Host.divf : (⟨S128, .f32⟩ : BufTy).Contents (Elt F) → (⟨S128, .f32⟩ : BufTy).Contents (Elt F) → (⟨S128, .f32⟩ : BufTy).Contents (Elt F)),
    StableHlo.nullary main_c_45 (constantI S_ 32 0#32) ]

abbrev r1 : List (HloOp τ sig (Elt F)) :=
  [ StableHlo.TRef.nullary main_call2.cst (constant S_ .f32 0x00000000#32),
    StableHlo.TRef.binary (.of main_v200) main_call2.cst main_call2.v0 (fun x v => Host.reduceAdd x v reducesTo_S100x128_S128_d0 h_S_),
    StableHlo.TRef.unary main_call2.v0 main_call2.v1 (broadcastInDim S1x128 ![1] bcast_S128_S1x128_1),
    StableHlo.TRef.nullary main_call2.cst_0 (constant S_ .f32 0x42C80000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100x128 ![0, 1] bcast_S1x128_S100x128_0_1),
    StableHlo.TRef.binary (.of main_v200) main_call2.v4 main_call2.v5 subf,
    StableHlo.TRef.binary main_call2.v5 main_call2.v5 main_call2.v6 mulf,
    StableHlo.TRef.unary (.of main_c_45) main_call2.v7 (sitofp .f32),
    StableHlo.TRef.nullary main_call2.cst_1 (constant S_ .f32 0x42C80000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

abbrev r2 : List (HloOp τ sig (Elt F)) :=
  [ StableHlo.unary main_v203 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S100x128 ![0, 1] bcast_S1x128_S100x128_0_1 : (⟨S1x128, .f32⟩ : BufTy).Contents (Elt F) → (⟨S100x128, .f32⟩ : BufTy).Contents (Elt F)),
    StableHlo.binary main_v200 main_v206 main_v207 (subf : (⟨S100x128, .f32⟩ : BufTy).Contents (Elt F) → (⟨S100x128, .f32⟩ : BufTy).Contents (Elt F) → (⟨S100x128, .f32⟩ : BufTy).Contents (Elt F)),
    StableHlo.unary main_arg25 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S100x128 ![0, 1] bcast_S1x128_S100x128_0_1 : (⟨S1x128, .f32⟩ : BufTy).Contents (Elt F) → (⟨S100x128, .f32⟩ : BufTy).Contents (Elt F)),
    StableHlo.binary main_v209 main_v207 main_v210 (mulf : (⟨S100x128, .f32⟩ : BufTy).Contents (Elt F) → (⟨S100x128, .f32⟩ : BufTy).Contents (Elt F) → (⟨S100x128, .f32⟩ : BufTy).Contents (Elt F)),
    StableHlo.nullary main_cst_46 (constant S_ .f32 0x3727C5AC#32),
    StableHlo.unary main_cst_46 main_v211 (broadcastInDim S128 ![] bcast_S_S128 : (⟨S_, .f32⟩ : BufTy).Contents (Elt F) → (⟨S128, .f32⟩ : BufTy).Contents (Elt F)),
    StableHlo.binary main_v204 main_v211 main_v212 (addf : (⟨S128, .f32⟩ : BufTy).Contents (Elt F) → (⟨S128, .f32⟩ : BufTy).Contents (Elt F) → (⟨S128, .f32⟩ : BufTy).Contents (Elt F)),
    StableHlo.unary main_v212 main_v213 (Host.sqrt : (⟨S128, .f32⟩ : BufTy).Contents (Elt F) → (⟨S128, .f32⟩ : BufTy).Contents (Elt F)),
    StableHlo.unary main_v213 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S100x128 ![0, 1] bcast_S1x128_S100x128_0_1 : (⟨S1x128, .f32⟩ : BufTy).Contents (Elt F) → (⟨S100x128, .f32⟩ : BufTy).Contents (Elt F)),
    StableHlo.binary main_v210 main_v215 main_v216 (Host.divf : (⟨S100x128, .f32⟩ : BufTy).Contents (Elt F) → (⟨S100x128, .f32⟩ : BufTy).Contents (Elt F) → (⟨S100x128, .f32⟩ : BufTy).Contents (Elt F)),
    StableHlo.unary main_arg26 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S100x128 ![0, 1] bcast_S1x128_S100x128_0_1 : (⟨S1x128, .f32⟩ : BufTy).Contents (Elt F) → (⟨S100x128, .f32⟩ : BufTy).Contents (Elt F)),
    StableHlo.binary main_v216 main_v218 main_v219 (addf : (⟨S100x128, .f32⟩ : BufTy).Contents (Elt F) → (⟨S100x128, .f32⟩ : BufTy).Contents (Elt F) → (⟨S100x128, .f32⟩ : BufTy).Contents (Elt F)),
    StableHlo.nullary main_cst_47 (constant S_ .f32 0x00000000#32),
    StableHlo.unary main_cst_47 main_v220 (broadcastInDim S100x128 ![] bcast_S_S100x128 : (⟨S_, .f32⟩ : BufTy).Contents (Elt F) → (⟨S100x128, .f32⟩ : BufTy).Contents (Elt F)),
    StableHlo.binary main_v219 main_v220 main_v221 (cmpf .ogt : (⟨S100x128, .f32⟩ : BufTy).Contents (Elt F) → (⟨S100x128, .f32⟩ : BufTy).Contents (Elt F) → (⟨S100x128, .i1⟩ : BufTy).Contents (Elt F)),
    StableHlo.nullary main_cst_48 (constant S_ .f32 0x3C23D70A#32),
    StableHlo.unary main_cst_48 main_v222 (broadcastInDim S100x128 ![] bcast_S_S100x128 : (⟨S_, .f32⟩ : BufTy).Contents (Elt F) → (⟨S100x128, .f32⟩ : BufTy).Contents (Elt F)),
    StableHlo.binary main_v222 main_v219 main_v223 (mulf : (⟨S100x128, .f32⟩ : BufTy).Contents (Elt F) → (⟨S100x128, .f32⟩ : BufTy).Contents (Elt F) → (⟨S100x128, .f32⟩ : BufTy).Contents (Elt F)) ]

abbrev r3 : List (HloOp τ sig (Elt F)) :=
  [ StableHlo.TRef.ternary (.of main_v221) (.of main_v219) (.of main_v223) main_call3.v0 select ]

abbrev r4 : List (HloOp τ sig (Elt F)) :=
  [ StableHlo.binary main_v224 main_arg27 main_v225 ((fun l r => Host.dotGeneral dot_S100x128_S128x64_S100x64_1_0_0_1_n_n none l r) : (⟨S100x128, .f32⟩ : BufTy).Contents (Elt F) → (⟨S128x64, .f32⟩ : BufTy).Contents (Elt F) → (⟨S100x64, .f32⟩ : BufTy).Contents (Elt F)),
    StableHlo.unary main_arg28 main_v226 (broadcastInDim S1x64 ![1] bcast_S64_S1x64_1 : (⟨S64, .f32⟩ : BufTy).Contents (Elt F) → (⟨S1x64, .f32⟩ : BufTy).Contents (Elt F)),
    StableHlo.unary main_v226 main_v227 (broadcastInDim S100x64 ![0, 1] bcast_S1x64_S100x64_0_1 : (⟨S1x64, .f32⟩ : BufTy).Contents (Elt F) → (⟨S100x64, .f32⟩ : BufTy).Contents (Elt F)),
    StableHlo.binary main_v225 main_v227 main_v228 (addf : (⟨S100x64, .f32⟩ : BufTy).Contents (Elt F) → (⟨S100x64, .f32⟩ : BufTy).Contents (Elt F) → (⟨S100x64, .f32⟩ : BufTy).Contents (Elt F)),
    StableHlo.nullary main_cst_49 (constant S_ .f32 0x00000000#32),
    StableHlo.binary main_v228 main_cst_49 main_v229 ((fun x v => Host.reduceAdd x v reducesTo_S100x64_S64_d0 h_S_) : (⟨S100x64, .f32⟩ : BufTy).Contents (Elt F) → (⟨S_, .f32⟩ : BufTy).Contents (Elt F) → (⟨S64, .f32⟩ : BufTy).Contents (Elt F)),
    StableHlo.nullary main_cst_50 (constant S_ .f32 0x42C80000#32),
    StableHlo.unary main_cst_50 main_v230 (broadcastInDim S64 ![] bcast_S_S64 : (⟨S_, .f32⟩ : BufTy).Contents (Elt F) → (⟨S64, .f32⟩ : BufTy).Contents (Elt F)),
    StableHlo.binary main_v229 main_v230 main_v231 (Host.divf : (⟨S64, .f32⟩ : BufTy).Contents (Elt F) → (⟨S64, .f32⟩ : BufTy).Contents (Elt F) → (⟨S64, .f32⟩ : BufTy).Contents (Elt F)),
    StableHlo.nullary main_c_51 (constantI S_ 32 0#32) ]

abbrev r5 : List (HloOp τ sig (Elt F)) :=
  [ StableHlo.TRef.nullary main_call4.cst (constant S_ .f32 0x00000000#32),
    StableHlo.TRef.binary (.of main_v228) main_call4.cst main_call4.v0 (fun x v => Host.reduceAdd x v reducesTo_S100x64_S64_d0 h_S_),
    StableHlo.TRef.unary main_call4.v0 main_call4.v1 (broadcastInDim S1x64 ![1] bcast_S64_S1x64_1),
    StableHlo.TRef.nullary main_call4.cst_0 (constant S_ .f32 0x42C80000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100x64 ![0, 1] bcast_S1x64_S100x64_0_1),
    StableHlo.TRef.binary (.of main_v228) main_call4.v4 main_call4.v5 subf,
    StableHlo.TRef.binary main_call4.v5 main_call4.v5 main_call4.v6 mulf,
    StableHlo.TRef.unary (.of main_c_51) main_call4.v7 (sitofp .f32),
    StableHlo.TRef.nullary main_call4.cst_1 (constant S_ .f32 0x42C80000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

abbrev r6 : List (HloOp τ sig (Elt F)) :=
  [ StableHlo.unary main_v231 main_v233 (broadcastInDim S1x64 ![1] bcast_S64_S1x64_1 : (⟨S64, .f32⟩ : BufTy).Contents (Elt F) → (⟨S1x64, .f32⟩ : BufTy).Contents (Elt F)),
    StableHlo.unary main_v233 main_v234 (broadcastInDim S100x64 ![0, 1] bcast_S1x64_S100x64_0_1 : (⟨S1x64, .f32⟩ : BufTy).Contents (Elt F) → (⟨S100x64, .f32⟩ : BufTy).Contents (Elt F)),
    StableHlo.binary main_v228 main_v234 main_v235 (subf : (⟨S100x64, .f32⟩ : BufTy).Contents (Elt F) → (⟨S100x64, .f32⟩ : BufTy).Contents (Elt F) → (⟨S100x64, .f32⟩ : BufTy).Contents (Elt F)),
    StableHlo.unary main_arg29 main_v236 (broadcastInDim S1x64 ![1] bcast_S64_S1x64_1 : (⟨S64, .f32⟩ : BufTy).Contents (Elt F) → (⟨S1x64, .f32⟩ : BufTy).Contents (Elt F)),
    StableHlo.unary main_v236 main_v237 (broadcastInDim S100x64 ![0, 1] bcast_S1x64_S100x64_0_1 : (⟨S1x64, .f32⟩ : BufTy).Contents (Elt F) → (⟨S100x64, .f32⟩ : BufTy).Contents (Elt F)),
    StableHlo.binary main_v237 main_v235 main_v238 (mulf : (⟨S100x64, .f32⟩ : BufTy).Contents (Elt F) → (⟨S100x64, .f32⟩ : BufTy).Contents (Elt F) → (⟨S100x64, .f32⟩ : BufTy).Contents (Elt F)),
    StableHlo.nullary main_cst_52 (constant S_ .f32 0x3727C5AC#32),
    StableHlo.unary main_cst_52 main_v239 (broadcastInDim S64 ![] bcast_S_S64 : (⟨S_, .f32⟩ : BufTy).Contents (Elt F) → (⟨S64, .f32⟩ : BufTy).Contents (Elt F)),
    StableHlo.binary main_v232 main_v239 main_v240 (addf : (⟨S64, .f32⟩ : BufTy).Contents (Elt F) → (⟨S64, .f32⟩ : BufTy).Contents (Elt F) → (⟨S64, .f32⟩ : BufTy).Contents (Elt F)),
    StableHlo.unary main_v240 main_v241 (Host.sqrt : (⟨S64, .f32⟩ : BufTy).Contents (Elt F) → (⟨S64, .f32⟩ : BufTy).Contents (Elt F)),
    StableHlo.unary main_v241 main_v242 (broadcastInDim S1x64 ![1] bcast_S64_S1x64_1 : (⟨S64, .f32⟩ : BufTy).Contents (Elt F) → (⟨S1x64, .f32⟩ : BufTy).Contents (Elt F)),
    StableHlo.unary main_v242 main_v243 (broadcastInDim S100x64 ![0, 1] bcast_S1x64_S100x64_0_1 : (⟨S1x64, .f32⟩ : BufTy).Contents (Elt F) → (⟨S100x64, .f32⟩ : BufTy).Contents (Elt F)),
    StableHlo.binary main_v238 main_v243 main_v244 (Host.divf : (⟨S100x64, .f32⟩ : BufTy).Contents (Elt F) → (⟨S100x64, .f32⟩ : BufTy).Contents (Elt F) → (⟨S100x64, .f32⟩ : BufTy).Contents (Elt F)),
    StableHlo.unary main_arg30 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S100x64 ![0, 1] bcast_S1x64_S100x64_0_1 : (⟨S1x64, .f32⟩ : BufTy).Contents (Elt F) → (⟨S100x64, .f32⟩ : BufTy).Contents (Elt F)),
    StableHlo.binary main_v244 main_v246 main_v247 (addf : (⟨S100x64, .f32⟩ : BufTy).Contents (Elt F) → (⟨S100x64, .f32⟩ : BufTy).Contents (Elt F) → (⟨S100x64, .f32⟩ : BufTy).Contents (Elt F)),
    StableHlo.nullary main_cst_53 (constant S_ .f32 0x00000000#32),
    StableHlo.unary main_cst_53 main_v248 (broadcastInDim S100x64 ![] bcast_S_S100x64 : (⟨S_, .f32⟩ : BufTy).Contents (Elt F) → (⟨S100x64, .f32⟩ : BufTy).Contents (Elt F)),
    StableHlo.binary main_v247 main_v248 main_v249 (cmpf .ogt : (⟨S100x64, .f32⟩ : BufTy).Contents (Elt F) → (⟨S100x64, .f32⟩ : BufTy).Contents (Elt F) → (⟨S100x64, .i1⟩ : BufTy).Contents (Elt F)),
    StableHlo.nullary main_cst_54 (constant S_ .f32 0x3C23D70A#32),
    StableHlo.unary main_cst_54 main_v250 (broadcastInDim S100x64 ![] bcast_S_S100x64 : (⟨S_, .f32⟩ : BufTy).Contents (Elt F) → (⟨S100x64, .f32⟩ : BufTy).Contents (Elt F)),
    StableHlo.binary main_v250 main_v247 main_v251 (mulf : (⟨S100x64, .f32⟩ : BufTy).Contents (Elt F) → (⟨S100x64, .f32⟩ : BufTy).Contents (Elt F) → (⟨S100x64, .f32⟩ : BufTy).Contents (Elt F)) ]

abbrev r7 : List (HloOp τ sig (Elt F)) :=
  [ StableHlo.TRef.ternary (.of main_v249) (.of main_v247) (.of main_v251) main_call5.v0 select ]

abbrev r8 : List (HloOp τ sig (Elt F)) :=
  [ StableHlo.binary main_v252 main_arg31 main_v253 ((fun l r => Host.dotGeneral dot_S100x64_S64x3_S100x3_1_0_0_1_n_n none l r) : (⟨S100x64, .f32⟩ : BufTy).Contents (Elt F) → (⟨S64x3, .f32⟩ : BufTy).Contents (Elt F) → (⟨S100x3, .f32⟩ : BufTy).Contents (Elt F)),
    StableHlo.unary main_arg32 main_v254 (broadcastInDim S1x3 ![1] bcast_S3_S1x3_1 : (⟨S3, .f32⟩ : BufTy).Contents (Elt F) → (⟨S1x3, .f32⟩ : BufTy).Contents (Elt F)),
    StableHlo.unary main_v254 main_v255 (broadcastInDim S100x3 ![0, 1] bcast_S1x3_S100x3_0_1 : (⟨S1x3, .f32⟩ : BufTy).Contents (Elt F) → (⟨S100x3, .f32⟩ : BufTy).Contents (Elt F)),
    StableHlo.binary main_v253 main_v255 main_v256 (addf : (⟨S100x3, .f32⟩ : BufTy).Contents (Elt F) → (⟨S100x3, .f32⟩ : BufTy).Contents (Elt F) → (⟨S100x3, .f32⟩ : BufTy).Contents (Elt F)) ]

abbrev rc10 : List (HloOp τ sig (Elt F)) := r0 ++ (r1 ++ (r2 ++ (r3 ++ (r4 ++ (r5 ++ (r6 ++ (r7 ++ r8)))))))

abbrev ops : List (HloOp τ sig (Elt F)) := rc0 ++ (rc1 ++ (rc2 ++ (rc3 ++ (rc4 ++ (rc5 ++ (rc6 ++ (rc7 ++ (rc8 ++ (rc9 ++ rc10)))))))))

set_option maxHeartbeats 4000000 in
theorem main_part0_eq (c : Dev nD) : main_part0 (F := F) c = seq (ops.take 60) := rfl
set_option maxHeartbeats 4000000 in
theorem main_part1_eq (c : Dev nD) : main_part1 (F := F) c = seq ((ops.drop 60).take 60) := rfl
set_option maxHeartbeats 4000000 in
theorem main_part2_eq (c : Dev nD) : main_part2 (F := F) c = seq ((ops.drop 120).take 60) := rfl
set_option maxHeartbeats 4000000 in
theorem main_part3_eq (c : Dev nD) : main_part3 (F := F) c = seq ((ops.drop 180).take 60) := rfl
set_option maxHeartbeats 4000000 in
theorem main_part4_eq (c : Dev nD) : main_part4 (F := F) c = seq ((ops.drop 240).take 102) := rfl
set_option maxHeartbeats 4000000 in
theorem main_part5_eq (c : Dev nD) : main_part5 (F := F) c = seq (ops.drop 342) := rfl

set_option maxHeartbeats 4000000 in
theorem ops_windows : (ops : List (HloOp τ sig (Elt F))) = ops.take 60 ++ ((ops.drop 60).take 60 ++ ((ops.drop 120).take 60 ++
    ((ops.drop 180).take 60 ++ ((ops.drop 240).take 102 ++ ops.drop 342)))) := rfl

theorem main_eq (c : Dev nD) : main (F := F) c = seq ops := by
  rw [ops_windows]
  simp only [seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, rc0, rc1, rc2, rc3, rc4, rc5, rc6, rc7, rc8, rc9, rc10, r0, r1, r2, r3, r4, r5, r6, r7, r8,
    List.cons_append, List.nil_append, List.Forall]
  repeat' apply And.intro
  all_goals with_reducible first | exact unary_bufs_sub .. | exact binary_bufs_sub .. | exact nullary_bufs_sub .. | exact ternary_bufs_sub .. | exact reshape_bufs_sub ..

theorem ops_fresh : ∀ op ∈ (ops : List (HloOp τ sig (Elt F))), op.fresh = ∅ := List.forall_iff_forall_mem.mp (by
  simp only [ops, rc0, rc1, rc2, rc3, rc4, rc5, rc6, rc7, rc8, rc9, rc10, r0, r1, r2, r3, r4, r5, r6, r7, r8,
    List.cons_append, List.nil_append, List.Forall]
  repeat' constructor)

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

theorem after_ops (V : Valuation τ sig (Elt F)) : after ops V = after rc10 (after rc9 (after rc8 (after rc7 (after rc6 (after rc5 (after rc4 (after rc3 (after rc2 (after rc1 (after rc0 (V))))))))))) := by
  simp only [ops, StableHlo.after_append]

end Cert.ReferenceIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev M (r c : Nat) : Type := (⟨2, ![r, c]⟩ : Shape).Idx → EReal

def eps : EReal := Ideal.ofBits .f32 0x3727C5AC#32
def slope : EReal := Ideal.ofBits .f32 0x3C23D70A#32
def zero : EReal := Ideal.ofBits .f32 0x00000000#32

def row {d : Nat} (v : (⟨1, ![d]⟩ : Shape).Idx → EReal) : M 1 d := fun j => v (ix1 (j 1))

def conv {n din dout : Nat} (agg x : M n din) (wrel : M din dout) (brel : M 1 dout) (wroot : M din dout) : M n dout :=
  fun j => ((∑ k : Fin din, agg (ix2 (j 0) k) * wrel (ix2 k (j 1))) + ∑ k : Fin din, x (ix2 (j 0) k) * wroot (ix2 k (j 1)))
    + brel (ix2 0 (j 1))

def lrelu (v : EReal) : EReal :=
  Scalar.select (FloatOps.cmpf (F := Ideal) (φ := .f32) .ogt v zero) v (slope * v)

def normAct {n d B : Nat} (y : M n d) (rowOf : Fin n → Fin B) (mean var : M B d) (g b a : M 1 d) : M n d :=
  fun j => lrelu (g (ix2 0 (j 1)) * (y j - a (ix2 0 (j 1)) * mean (ix2 (rowOf (j 0)) (j 1)))
      * Ideal.rsqrt (var (ix2 (rowOf (j 0)) (j 1)) + eps) + b (ix2 0 (j 1)))

end Cert.Spec

end
-- ==== Proof.StageDefs.lean ====
import proofs.«411421_j14293651161727_1_alg».proof.Proof.RefOps
import proofs.«411421_j14293651161727_1_alg».proof.Proof.Gen.KernelIdeal.Launch
import proofs.«411421_j14293651161727_1_alg».proof.Proof.Spec

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

def cntR (bt : IVec Cert.ReferenceIdeal.S100000 32) : FVec Ideal Cert.ReferenceIdeal.S100x1 .f32 :=
  Host.scatterAdd Cert.ReferenceIdeal.scatter_S100x1_S100000x1_S100000x1_1_0_0_1
    (broadcastInDim Cert.ReferenceIdeal.S100x1 ![] Cert.ReferenceIdeal.Facts₀.bcast_S_S100x1 (constant Cert.ReferenceIdeal.S_ .f32 0x00000000#32))
    (broadcastInDim Cert.ReferenceIdeal.S100000x1 ![0] Cert.ReferenceIdeal.Facts₀.bcast_S100000_S100000x1_0 bt)
    (broadcastInDim Cert.ReferenceIdeal.S100000x1 ![] Cert.ReferenceIdeal.Facts₀.bcast_S_S100000x1 (constant Cert.ReferenceIdeal.S_ .f32 0x3F800000#32))

abbrev tailK : List (HloOp Cert.KernelIdeal.τ Cert.KernelIdeal.sig (Elt Ideal)) :=
  Cert.KernelIdeal.Gen.hostOps5 ++ (Cert.KernelIdeal.Gen.hostOps5_1 ++ (Cert.KernelIdeal.Gen.hostOps5_2 ++ (Cert.KernelIdeal.Gen.hostOps5_3 ++
    (Cert.KernelIdeal.Gen.hostOps5_4 ++ (Cert.KernelIdeal.Gen.hostOps5_5 ++ (Cert.KernelIdeal.Gen.hostOps5_6 ++ (Cert.KernelIdeal.Gen.hostOps5_7 ++ Cert.KernelIdeal.Gen.hostOps5_8)))))))

end Cert.Stages

end
-- ==== Proof.Kept.lean ====
import proofs.«411421_j14293651161727_1_alg».proof.Proof.KRun
import proofs.«411421_j14293651161727_1_alg».proof.Proof.StageDefs

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

local notation "𝕜" b => (Proc.devRef (τ := Cert.KernelIdeal.τ) (sig := Cert.KernelIdeal.sig) Proc.tc b)
local notation "𝕣" b => (Proc.devRef (τ := Cert.ReferenceIdeal.τ) (sig := Cert.ReferenceIdeal.sig) Proc.tc b)

-- Each operation writes one buffer, and it is another one.
macro "not_written " ls:ident* : tactic => `(tactic| exact List.forall_iff_forall_mem.mp (by
  simp only [$[$ls:ident],*, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

-- A condition asked only up to a boundary: past it there is nothing to show.
macro "guarded " t:tactic : tactic => `(tactic| first | exact fun h => absurd h (by decide) | (intro _; $t))

section Kernel
open Cert.KernelIdeal Cert.KernelIdeal.Gen
variable (m : (ℓ : Loc nD τ sig) → Buf (Elt Ideal) ℓ) (ρ : Dev nD → PrngReg) (c : Dev nD)

abbrev KNW (l : List (HloOp τ sig (Elt Ideal))) (b : Ref sig .tc) : Prop := ∀ op ∈ l, (𝕜 b) ∉ op.writes

-- Between the first boundary and boundary `k` nothing changes the buffer.
structure KKept (k : ℕ) (b : Ref sig .tc) : Prop where
  r0 : 2 ≤ k → ∀ w, Pipeline.arrRef spec0 w ≠ b
  h1 : 3 ≤ k → KNW hostOps1 b
  r1 : 4 ≤ k → ∀ w, Pipeline.arrRef spec1 w ≠ b
  h2 : 5 ≤ k → KNW hostOps2 b
  r2 : 6 ≤ k → ∀ w, Pipeline.arrRef spec2 w ≠ b
  h3 : 7 ≤ k → KNW hostOps3 b
  r3 : 8 ≤ k → ∀ w, Pipeline.arrRef spec3 w ≠ b
  h4 : 9 ≤ k → KNW hostOps4 b
  r4 : 10 ≤ k → ∀ w, Pipeline.arrRef spec4 w ≠ b

-- ... nor before the first boundary.
structure KUntouched (k : ℕ) (b : Ref sig .tc) : Prop where
  h0 : KNW hostOps0 b
  kept : KKept k b

variable {k : ℕ} {b : Ref sig .tc}

section
variable (hb : KKept k b)
include hb
theorem KK2 (hk : 2 ≤ k := by decide) : W2 (F := Ideal) m ρ c (𝕜 b) = W1 m ρ c (𝕜 b) := W2_of_ne m ρ c b (hb.r0 hk)
theorem KK3 (hk : 3 ≤ k := by decide) : W3 (F := Ideal) m ρ c (𝕜 b) = W1 m ρ c (𝕜 b) :=
  (after_of_forall_not_mem _ _ (hb.h1 hk)).trans (KK2 m ρ c hb (Nat.le_of_succ_le hk))
theorem KK4 (hk : 4 ≤ k := by decide) : W4 (F := Ideal) m ρ c (𝕜 b) = W1 m ρ c (𝕜 b) :=
  (W4_of_ne m ρ c b (hb.r1 hk)).trans (KK3 m ρ c hb (Nat.le_of_succ_le hk))
theorem KK5 (hk : 5 ≤ k := by decide) : W5 (F := Ideal) m ρ c (𝕜 b) = W1 m ρ c (𝕜 b) :=
  (after_of_forall_not_mem _ _ (hb.h2 hk)).trans (KK4 m ρ c hb (Nat.le_of_succ_le hk))
theorem KK6 (hk : 6 ≤ k := by decide) : W6 (F := Ideal) m ρ c (𝕜 b) = W1 m ρ c (𝕜 b) :=
  (W6_of_ne m ρ c b (hb.r2 hk)).trans (KK5 m ρ c hb (Nat.le_of_succ_le hk))
theorem KK7 (hk : 7 ≤ k := by decide) : W7 (F := Ideal) m ρ c (𝕜 b) = W1 m ρ c (𝕜 b) :=
  (after_of_forall_not_mem _ _ (hb.h3 hk)).trans (KK6 m ρ c hb (Nat.le_of_succ_le hk))
theorem KK8 (hk : 8 ≤ k := by decide) : W8 (F := Ideal) m ρ c (𝕜 b) = W1 m ρ c (𝕜 b) :=
  (W8_of_ne m ρ c b (hb.r3 hk)).trans (KK7 m ρ c hb (Nat.le_of_succ_le hk))
theorem KK9 (hk : 9 ≤ k := by decide) : W9 (F := Ideal) m ρ c (𝕜 b) = W1 m ρ c (𝕜 b) :=
  (after_of_forall_not_mem _ _ (hb.h4 hk)).trans (KK8 m ρ c hb (Nat.le_of_succ_le hk))
theorem KK10 (hk : 10 ≤ k := by decide) : W10 (F := Ideal) m ρ c (𝕜 b) = W1 m ρ c (𝕜 b) :=
  (W10_of_ne m ρ c b (hb.r4 hk)).trans (KK9 m ρ c hb (Nat.le_of_succ_le hk))
end

variable (hb : KUntouched k b)
include hb
theorem KU1 : W1 (F := Ideal) m ρ c (𝕜 b) = W0 m ρ c (𝕜 b) := after_of_forall_not_mem _ _ hb.h0
theorem KU2 (hk : 2 ≤ k := by decide) : W2 (F := Ideal) m ρ c (𝕜 b) = W0 m ρ c (𝕜 b) := (KK2 m ρ c hb.kept hk).trans (KU1 m ρ c hb)
theorem KU4 (hk : 4 ≤ k := by decide) : W4 (F := Ideal) m ρ c (𝕜 b) = W0 m ρ c (𝕜 b) := (KK4 m ρ c hb.kept hk).trans (KU1 m ρ c hb)
theorem KU5 (hk : 5 ≤ k := by decide) : W5 (F := Ideal) m ρ c (𝕜 b) = W0 m ρ c (𝕜 b) := (KK5 m ρ c hb.kept hk).trans (KU1 m ρ c hb)
theorem KU6 (hk : 6 ≤ k := by decide) : W6 (F := Ideal) m ρ c (𝕜 b) = W0 m ρ c (𝕜 b) := (KK6 m ρ c hb.kept hk).trans (KU1 m ρ c hb)
theorem KU8 (hk : 8 ≤ k := by decide) : W8 (F := Ideal) m ρ c (𝕜 b) = W0 m ρ c (𝕜 b) := (KK8 m ρ c hb.kept hk).trans (KU1 m ρ c hb)
theorem KU9 (hk : 9 ≤ k := by decide) : W9 (F := Ideal) m ρ c (𝕜 b) = W0 m ρ c (𝕜 b) := (KK9 m ρ c hb.kept hk).trans (KU1 m ρ c hb)
theorem KU10 (hk : 10 ≤ k := by decide) : W10 (F := Ideal) m ρ c (𝕜 b) = W0 m ρ c (𝕜 b) := (KK10 m ρ c hb.kept hk).trans (KU1 m ρ c hb)
omit hb
end Kernel

macro "k_kept" : tactic => `(tactic| exact
  ⟨by guarded decide, by guarded not_written Cert.KernelIdeal.Gen.hostOps1, by guarded decide, by guarded not_written Cert.KernelIdeal.Gen.hostOps2, by guarded decide,
   by guarded not_written Cert.KernelIdeal.Gen.hostOps3, by guarded decide, by guarded not_written Cert.KernelIdeal.Gen.hostOps4, by guarded decide⟩)
macro "k_untouched" : tactic => `(tactic| exact ⟨by not_written Cert.KernelIdeal.Gen.hostOps0, by k_kept⟩)

section Reference
open Cert.ReferenceIdeal
variable (V : Valuation τ sig (Elt Ideal))

abbrev RNW (l : List (HloOp τ sig (Elt Ideal))) (b : Ref sig .tc) : Prop := ∀ op ∈ l, (𝕣 b) ∉ op.writes

-- No stage of the reference writes the buffer.
class RUntouched (b : Ref sig .tc) : Prop where
  h0 : RNW rc0 b
  h1 : RNW rc1 b
  h2 : RNW rc2 b
  h3 : RNW rc3 b
  h4 : RNW rc4 b
  h5 : RNW rc5 b
  h6 : RNW rc6 b
  h7 : RNW rc7 b
  h8 : RNW rc8 b
  h9 : RNW rc9 b
  h10 : RNW rc10 b

abbrev Rv1 := after rc0 V
abbrev Rv2 := after rc1 (Rv1 V)
abbrev Rv3 := after rc2 (Rv2 V)
abbrev Rv4 := after rc3 (Rv3 V)
abbrev Rv5 := after rc4 (Rv4 V)
abbrev Rv6 := after rc5 (Rv5 V)
abbrev Rv7 := after rc6 (Rv6 V)
abbrev Rv8 := after rc7 (Rv7 V)
abbrev Rv9 := after rc8 (Rv8 V)
abbrev Rv10 := after rc9 (Rv9 V)

variable {b : Ref sig .tc}
section
variable [hb : RUntouched b]
theorem RU1 : Rv1 V (𝕣 b) = V (𝕣 b) := after_of_forall_not_mem _ _ hb.h0
theorem RU2 : Rv2 V (𝕣 b) = V (𝕣 b) := (after_of_forall_not_mem _ _ hb.h1).trans (RU1 V)
theorem RU3 : Rv3 V (𝕣 b) = V (𝕣 b) := (after_of_forall_not_mem _ _ hb.h2).trans (RU2 V)
theorem RU4 : Rv4 V (𝕣 b) = V (𝕣 b) := (after_of_forall_not_mem _ _ hb.h3).trans (RU3 V)
theorem RU5 : Rv5 V (𝕣 b) = V (𝕣 b) := (after_of_forall_not_mem _ _ hb.h4).trans (RU4 V)
theorem RU6 : Rv6 V (𝕣 b) = V (𝕣 b) := (after_of_forall_not_mem _ _ hb.h5).trans (RU5 V)
theorem RU7 : Rv7 V (𝕣 b) = V (𝕣 b) := (after_of_forall_not_mem _ _ hb.h6).trans (RU6 V)
theorem RU8 : Rv8 V (𝕣 b) = V (𝕣 b) := (after_of_forall_not_mem _ _ hb.h7).trans (RU7 V)
theorem RU9 : Rv9 V (𝕣 b) = V (𝕣 b) := (after_of_forall_not_mem _ _ hb.h8).trans (RU8 V)
theorem RU10 : Rv10 V (𝕣 b) = V (𝕣 b) := (after_of_forall_not_mem _ _ hb.h9).trans (RU9 V)
-- A buffer that no stage writes is, after all of @main, what it was.
theorem RU11 : after Hand.ops V (𝕣 b) = V (𝕣 b) := by
  rw [Hand.after_ops]; exact (after_of_forall_not_mem _ _ hb.h10).trans (RU10 V)
end

-- Stages two to eight of the reference do not write the buffer.
structure RKept (b : Ref sig .tc) : Prop where
  h1 : RNW rc1 b
  h2 : RNW rc2 b
  h3 : RNW rc3 b
  h4 : RNW rc4 b
  h5 : RNW rc5 b
  h6 : RNW rc6 b
  h7 : RNW rc7 b

variable (hb : RKept b)
include hb
theorem RK4 : Rv4 V (𝕣 b) = Rv1 V (𝕣 b) :=
  (after_of_forall_not_mem _ _ hb.h3).trans ((after_of_forall_not_mem _ _ hb.h2).trans (after_of_forall_not_mem _ _ hb.h1))
theorem RK8 : Rv8 V (𝕣 b) = Rv1 V (𝕣 b) :=
  (after_of_forall_not_mem _ _ hb.h7).trans ((after_of_forall_not_mem _ _ hb.h6).trans
    ((after_of_forall_not_mem _ _ hb.h5).trans ((after_of_forall_not_mem _ _ hb.h4).trans (RK4 V hb))))
omit hb
end Reference

macro "r_kept" : tactic => `(tactic| exact
  ⟨by not_written Cert.ReferenceIdeal.Hand.rc1, by not_written Cert.ReferenceIdeal.Hand.rc2, by not_written Cert.ReferenceIdeal.Hand.rc3, by not_written Cert.ReferenceIdeal.Hand.rc4, by not_written Cert.ReferenceIdeal.Hand.rc5, by not_written Cert.ReferenceIdeal.Hand.rc6, by not_written Cert.ReferenceIdeal.Hand.rc7⟩)
macro "r_untouched" : tactic => `(tactic| exact
  ⟨by not_written Cert.ReferenceIdeal.Hand.rc0, by not_written Cert.ReferenceIdeal.Hand.rc1, by not_written Cert.ReferenceIdeal.Hand.rc2, by not_written Cert.ReferenceIdeal.Hand.rc3, by not_written Cert.ReferenceIdeal.Hand.rc4, by not_written Cert.ReferenceIdeal.Hand.rc5,
   by not_written Cert.ReferenceIdeal.Hand.rc6, by not_written Cert.ReferenceIdeal.Hand.rc7, by not_written Cert.ReferenceIdeal.Hand.rc8, by not_written Cert.ReferenceIdeal.Hand.rc9, by not_written Cert.ReferenceIdeal.Hand.rc10 Cert.ReferenceIdeal.Hand.r0 Cert.ReferenceIdeal.Hand.r1 Cert.ReferenceIdeal.Hand.r2 Cert.ReferenceIdeal.Hand.r3 Cert.ReferenceIdeal.Hand.r4 Cert.ReferenceIdeal.Hand.r5 Cert.ReferenceIdeal.Hand.r6 Cert.ReferenceIdeal.Hand.r7 Cert.ReferenceIdeal.Hand.r8⟩)

theorem ku3 : KUntouched 10 Cert.KernelIdeal.main_arg3 := by k_untouched
theorem ku4 : KUntouched 10 Cert.KernelIdeal.main_arg4 := by k_untouched
theorem ku10 : KUntouched 10 Cert.KernelIdeal.main_arg10 := by k_untouched
theorem ku13 : KUntouched 10 Cert.KernelIdeal.main_arg13 := by k_untouched
theorem ku15 : KUntouched 10 Cert.KernelIdeal.main_arg15 := by k_untouched
theorem ku16 : KUntouched 10 Cert.KernelIdeal.main_arg16 := by k_untouched
theorem ku17 : KUntouched 10 Cert.KernelIdeal.main_arg17 := by k_untouched
theorem ku18 : KUntouched 10 Cert.KernelIdeal.main_arg18 := by k_untouched
theorem ku19 : KUntouched 10 Cert.KernelIdeal.main_arg19 := by k_untouched
theorem ku20 : KUntouched 10 Cert.KernelIdeal.main_arg20 := by k_untouched
theorem ku21 : KUntouched 10 Cert.KernelIdeal.main_arg21 := by k_untouched
theorem ku22 : KUntouched 10 Cert.KernelIdeal.main_arg22 := by k_untouched
theorem ku23 : KUntouched 10 Cert.KernelIdeal.main_arg23 := by k_untouched
theorem ku24 : KUntouched 10 Cert.KernelIdeal.main_arg24 := by k_untouched
theorem ku25 : KUntouched 10 Cert.KernelIdeal.main_arg25 := by k_untouched
theorem ku26 : KUntouched 10 Cert.KernelIdeal.main_arg26 := by k_untouched
theorem ku27 : KUntouched 10 Cert.KernelIdeal.main_arg27 := by k_untouched
theorem ku28 : KUntouched 10 Cert.KernelIdeal.main_arg28 := by k_untouched
theorem ku29 : KUntouched 10 Cert.KernelIdeal.main_arg29 := by k_untouched
theorem ku30 : KUntouched 10 Cert.KernelIdeal.main_arg30 := by k_untouched
theorem ku31 : KUntouched 10 Cert.KernelIdeal.main_arg31 := by k_untouched
theorem ku32 : KUntouched 10 Cert.KernelIdeal.main_arg32 := by k_untouched
theorem ku6 : KUntouched 1 Cert.KernelIdeal.main_arg6 := by k_untouched
theorem ku8 : KUntouched 1 Cert.KernelIdeal.main_arg8 := by k_untouched
theorem ku9 : KUntouched 5 Cert.KernelIdeal.main_arg9 := by k_untouched
theorem ku11 : KUntouched 5 Cert.KernelIdeal.main_arg11 := by k_untouched
theorem ku12 : KUntouched 9 Cert.KernelIdeal.main_arg12 := by k_untouched
theorem ku14 : KUntouched 9 Cert.KernelIdeal.main_arg14 := by k_untouched
theorem kk_v1 : KKept 10 Cert.KernelIdeal.main_v1 := by k_kept
theorem kk_v3 : KKept 10 Cert.KernelIdeal.main_v3 := by k_kept
theorem kk_v4 : KKept 10 Cert.KernelIdeal.main_v4 := by k_kept
theorem kk_v15 : KKept 10 Cert.KernelIdeal.main_v15 := by k_kept
theorem rk_v1 : RKept Cert.ReferenceIdeal.main_v1 := by r_kept
theorem rk_v3 : RKept Cert.ReferenceIdeal.main_v3 := by r_kept
theorem rk_v4 : RKept Cert.ReferenceIdeal.main_v4 := by r_kept
instance : RUntouched Cert.ReferenceIdeal.main_arg0 := by r_untouched
instance : RUntouched Cert.ReferenceIdeal.main_arg1 := by r_untouched
instance : RUntouched Cert.ReferenceIdeal.main_arg2 := by r_untouched
instance : RUntouched Cert.ReferenceIdeal.main_arg3 := by r_untouched
instance : RUntouched Cert.ReferenceIdeal.main_arg4 := by r_untouched
instance : RUntouched Cert.ReferenceIdeal.main_arg5 := by r_untouched
instance : RUntouched Cert.ReferenceIdeal.main_arg6 := by r_untouched
instance : RUntouched Cert.ReferenceIdeal.main_arg7 := by r_untouched
instance : RUntouched Cert.ReferenceIdeal.main_arg8 := by r_untouched
instance : RUntouched Cert.ReferenceIdeal.main_arg9 := by r_untouched
instance : RUntouched Cert.ReferenceIdeal.main_arg10 := by r_untouched
instance : RUntouched Cert.ReferenceIdeal.main_arg11 := by r_untouched
instance : RUntouched Cert.ReferenceIdeal.main_arg12 := by r_untouched
instance : RUntouched Cert.ReferenceIdeal.main_arg13 := by r_untouched
instance : RUntouched Cert.ReferenceIdeal.main_arg14 := by r_untouched
instance : RUntouched Cert.ReferenceIdeal.main_arg15 := by r_untouched
instance : RUntouched Cert.ReferenceIdeal.main_arg16 := by r_untouched
instance : RUntouched Cert.ReferenceIdeal.main_arg17 := by r_untouched
instance : RUntouched Cert.ReferenceIdeal.main_arg18 := by r_untouched
instance : RUntouched Cert.ReferenceIdeal.main_arg19 := by r_untouched
instance : RUntouched Cert.ReferenceIdeal.main_arg20 := by r_untouched
instance : RUntouched Cert.ReferenceIdeal.main_arg21 := by r_untouched
instance : RUntouched Cert.ReferenceIdeal.main_arg22 := by r_untouched
instance : RUntouched Cert.ReferenceIdeal.main_arg23 := by r_untouched
instance : RUntouched Cert.ReferenceIdeal.main_arg24 := by r_untouched
instance : RUntouched Cert.ReferenceIdeal.main_arg25 := by r_untouched
instance : RUntouched Cert.ReferenceIdeal.main_arg26 := by r_untouched
instance : RUntouched Cert.ReferenceIdeal.main_arg27 := by r_untouched
instance : RUntouched Cert.ReferenceIdeal.main_arg28 := by r_untouched
instance : RUntouched Cert.ReferenceIdeal.main_arg29 := by r_untouched
instance : RUntouched Cert.ReferenceIdeal.main_arg30 := by r_untouched
instance : RUntouched Cert.ReferenceIdeal.main_arg31 := by r_untouched
instance : RUntouched Cert.ReferenceIdeal.main_arg32 := by r_untouched

end Cert.Stages

end
-- ==== Proof.Stage0.lean ====
import proofs.«411421_j14293651161727_1_alg».proof.Proof.StageDefs
import Idealize.ShloMosaic.Lib.Pipeline.Value

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

local notation "𝕜" b => (Proc.devRef (τ := Cert.KernelIdeal.τ) (sig := Cert.KernelIdeal.sig) Proc.tc b)
local notation "𝕣" b => (Proc.devRef (τ := Cert.ReferenceIdeal.τ) (sig := Cert.ReferenceIdeal.sig) Proc.tc b)

section Rel
variable (VK : Valuation Cert.KernelIdeal.τ Cert.KernelIdeal.sig (Elt Ideal)) (VR : Valuation Cert.ReferenceIdeal.τ Cert.ReferenceIdeal.sig (Elt Ideal))

theorem stage0_src (h1 : VK (𝕜 Cert.KernelIdeal.main_arg1) = VR (𝕣 Cert.ReferenceIdeal.main_arg1)) :
    after Cert.KernelIdeal.Gen.hostOps0 VK (𝕜 Cert.KernelIdeal.main_v1) = after rc0 VR (𝕣 Cert.ReferenceIdeal.main_v1) := by
  after_results_simp
  rw [h1]
  rfl

theorem stage0_dst (h1 : VK (𝕜 Cert.KernelIdeal.main_arg1) = VR (𝕣 Cert.ReferenceIdeal.main_arg1)) :
    after Cert.KernelIdeal.Gen.hostOps0 VK (𝕜 Cert.KernelIdeal.main_v3) = after rc0 VR (𝕣 Cert.ReferenceIdeal.main_v3) := by
  after_results_simp
  rw [h1]
  rfl

theorem stage0_w (h2 : VK (𝕜 Cert.KernelIdeal.main_arg2) = VR (𝕣 Cert.ReferenceIdeal.main_arg2)) :
    after Cert.KernelIdeal.Gen.hostOps0 VK (𝕜 Cert.KernelIdeal.main_v4) = after rc0 VR (𝕣 Cert.ReferenceIdeal.main_v4) := by
  after_results_simp
  rw [h2]
  rfl

theorem stage0_x (h0 : VK (𝕜 Cert.KernelIdeal.main_arg0) = VR (𝕣 Cert.ReferenceIdeal.main_arg0))
    (h5 : VK (𝕜 Cert.KernelIdeal.main_arg5) = VR (𝕣 Cert.ReferenceIdeal.main_arg5)) :
    after Cert.KernelIdeal.Gen.hostOps0 VK (𝕜 Cert.KernelIdeal.main_v11) = after rc0 VR (𝕣 Cert.ReferenceIdeal.main_v11) := by
  after_results_simp
  rw [h0, h5]
  rfl

theorem stage0_agg (h0 : VK (𝕜 Cert.KernelIdeal.main_arg0) = VR (𝕣 Cert.ReferenceIdeal.main_arg0))
    (h1 : VK (𝕜 Cert.KernelIdeal.main_arg1) = VR (𝕣 Cert.ReferenceIdeal.main_arg1))
    (h2 : VK (𝕜 Cert.KernelIdeal.main_arg2) = VR (𝕣 Cert.ReferenceIdeal.main_arg2))
    (h5 : VK (𝕜 Cert.KernelIdeal.main_arg5) = VR (𝕣 Cert.ReferenceIdeal.main_arg5)) :
    after Cert.KernelIdeal.Gen.hostOps0 VK (𝕜 Cert.KernelIdeal.main_v28) = after rc0 VR (𝕣 Cert.ReferenceIdeal.main_v24) := by
  after_results_simp
  rw [h0, h1, h2, h5]
  rfl

theorem shapeCast_row {d : Nat} (v : (⟨1, ![d]⟩ : Shape).Idx → EReal) (h : (⟨1, ![d]⟩ : Shape).ShapeCasts ⟨2, ![1, d]⟩) :
    (fun j => shapeCast (⟨2, ![1, d]⟩ : Shape) v h j) = Cert.Spec.row v := by
  funext j
  refine shapeCast_apply v h j (ix1 (j 1)) ?_
  have hu : (j 0).val = 0 := by have := idx2_lt0 j; omega
  rw [Shape.rowMajor_val_two, Shape.rowMajor_val_one]
  show (j 1).val = (j 0).val * d + (j 1).val
  rw [hu, Nat.zero_mul, Nat.zero_add]

theorem stage0_bias :
    after Cert.KernelIdeal.Gen.hostOps0 VK (𝕜 Cert.KernelIdeal.main_v29) = Cert.Spec.row (VK (𝕜 Cert.KernelIdeal.main_arg7)) := by
  after_results_simp
  exact shapeCast_row (d := 64) (VK (𝕜 Cert.KernelIdeal.main_arg7)) Cert.KernelIdeal.Gen.shapeCasts_S64_S1x64

theorem stage0_cnt (h3 : VK (𝕜 Cert.KernelIdeal.main_arg3) = VR (𝕣 Cert.ReferenceIdeal.main_arg3)) :
    after Cert.KernelIdeal.Gen.hostOps0 VK (𝕜 Cert.KernelIdeal.main_v15) = cntR (VR (𝕣 Cert.ReferenceIdeal.main_arg3)) := by
  after_results_simp
  rw [h3]
  unfold cntR
  rfl

theorem stage0 (h0 : VK (𝕜 Cert.KernelIdeal.main_arg0) = VR (𝕣 Cert.ReferenceIdeal.main_arg0))
    (h1 : VK (𝕜 Cert.KernelIdeal.main_arg1) = VR (𝕣 Cert.ReferenceIdeal.main_arg1))
    (h2 : VK (𝕜 Cert.KernelIdeal.main_arg2) = VR (𝕣 Cert.ReferenceIdeal.main_arg2))
    (h3 : VK (𝕜 Cert.KernelIdeal.main_arg3) = VR (𝕣 Cert.ReferenceIdeal.main_arg3))
    (h5 : VK (𝕜 Cert.KernelIdeal.main_arg5) = VR (𝕣 Cert.ReferenceIdeal.main_arg5)) :
    after Cert.KernelIdeal.Gen.hostOps0 VK (𝕜 Cert.KernelIdeal.main_v1) = after rc0 VR (𝕣 Cert.ReferenceIdeal.main_v1)
    ∧ after Cert.KernelIdeal.Gen.hostOps0 VK (𝕜 Cert.KernelIdeal.main_v3) = after rc0 VR (𝕣 Cert.ReferenceIdeal.main_v3)
    ∧ after Cert.KernelIdeal.Gen.hostOps0 VK (𝕜 Cert.KernelIdeal.main_v4) = after rc0 VR (𝕣 Cert.ReferenceIdeal.main_v4)
    ∧ after Cert.KernelIdeal.Gen.hostOps0 VK (𝕜 Cert.KernelIdeal.main_v11) = after rc0 VR (𝕣 Cert.ReferenceIdeal.main_v11)
    ∧ after Cert.KernelIdeal.Gen.hostOps0 VK (𝕜 Cert.KernelIdeal.main_v28) = after rc0 VR (𝕣 Cert.ReferenceIdeal.main_v24)
    ∧ after Cert.KernelIdeal.Gen.hostOps0 VK (𝕜 Cert.KernelIdeal.main_v29) = Cert.Spec.row (VK (𝕜 Cert.KernelIdeal.main_arg7))
    ∧ after Cert.KernelIdeal.Gen.hostOps0 VK (𝕜 Cert.KernelIdeal.main_v15) = cntR (VR (𝕣 Cert.ReferenceIdeal.main_arg3)) :=
  ⟨stage0_src VK VR h1, stage0_dst VK VR h1, stage0_w VK VR h2, stage0_x VK VR h0 h5, stage0_agg VK VR h0 h1 h2 h5,
    stage0_bias VK, stage0_cnt VK VR h3⟩

end Rel

end Cert.Stages

end
-- ==== Proof.Stage13.lean ====
import proofs.«411421_j14293651161727_1_alg».proof.Proof.StageDefs
import Idealize.ShloMosaic.Lib.Pipeline.Value

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

local notation "𝕜" b => (Proc.devRef (τ := Cert.KernelIdeal.τ) (sig := Cert.KernelIdeal.sig) Proc.tc b)
local notation "𝕣" b => (Proc.devRef (τ := Cert.ReferenceIdeal.τ) (sig := Cert.ReferenceIdeal.sig) Proc.tc b)

section Rel
variable (VK : Valuation Cert.KernelIdeal.τ Cert.KernelIdeal.sig (Elt Ideal)) (VR : Valuation Cert.ReferenceIdeal.τ Cert.ReferenceIdeal.sig (Elt Ideal))

theorem stage1_mean (hy : VK (𝕜 Cert.KernelIdeal.main_v30) = VR (𝕣 Cert.ReferenceIdeal.main_v30))
    (h3 : VK (𝕜 Cert.KernelIdeal.main_arg3) = VR (𝕣 Cert.ReferenceIdeal.main_arg3))
    (hc : VK (𝕜 Cert.KernelIdeal.main_v15) = cntR (VR (𝕣 Cert.ReferenceIdeal.main_arg3))) :
    after Cert.KernelIdeal.Gen.hostOps1 VK (𝕜 Cert.KernelIdeal.main_v37) = after rc2 VR (𝕣 Cert.ReferenceIdeal.main_v41) := by
  after_results_simp
  rw [hy, h3, hc]
  unfold cntR
  rfl

theorem stage1_var (hy : VK (𝕜 Cert.KernelIdeal.main_v30) = VR (𝕣 Cert.ReferenceIdeal.main_v30))
    (h3 : VK (𝕜 Cert.KernelIdeal.main_arg3) = VR (𝕣 Cert.ReferenceIdeal.main_arg3))
    (h17 : VK (𝕜 Cert.KernelIdeal.main_arg17) = VR (𝕣 Cert.ReferenceIdeal.main_arg17))
    (hc : VK (𝕜 Cert.KernelIdeal.main_v15) = cntR (VR (𝕣 Cert.ReferenceIdeal.main_arg3))) :
    after Cert.KernelIdeal.Gen.hostOps1 VK (𝕜 Cert.KernelIdeal.main_v56) = after rc2 VR (𝕣 Cert.ReferenceIdeal.main_v64) := by
  after_results_simp
  rw [hy, h3, h17, hc]
  unfold cntR
  rfl

theorem col_read {n : Nat} {α : Type} (v : (⟨1, ![n]⟩ : Shape).Idx → α)
    (h : (⟨1, ![n]⟩ : Shape).ShapeCasts ⟨2, ![n, 1]⟩) (e : Fin n) :
    shapeCast ⟨2, ![n, 1]⟩ v h (ix2 e 0) = v (ix1 e) := by
  refine shapeCast_apply v h (ix2 e 0) (ix1 e) ?_
  rw [Shape.rowMajor_val_one, Shape.rowMajor_val_two]
  show e.val = e.val * 1 + 0
  omega

theorem row_read {d : Nat} (v : (⟨1, ![d]⟩ : Shape).Idx → EReal)
    (h : (⟨1, ![d]⟩ : Shape).ShapeCasts ⟨2, ![1, d]⟩) :
    shapeCast ⟨2, ![1, d]⟩ v h = Cert.Spec.row v := by
  funext j
  unfold Cert.Spec.row
  refine shapeCast_apply v h j (ix1 (j 1)) ?_
  rw [Shape.rowMajor_val_one, Shape.rowMajor_val_two]
  have h0 : (j 0).val < 1 := (j 0).isLt
  show (j 1).val = (j 0).val * d + (j 1).val
  rw [show (j 0).val = 0 by omega]
  omega

theorem stage1_col (e : Fin 100000) :
    (after Cert.KernelIdeal.Gen.hostOps1 VK (𝕜 Cert.KernelIdeal.main_v57) : IVec Cert.KernelIdeal.S100000x1 32) (ix2 e 0)
      = (VK (𝕜 Cert.KernelIdeal.main_arg3) : IVec Cert.KernelIdeal.S100000 32) (ix1 e) := by
  after_results_simp
  exact col_read _ _ e

theorem stage1_row58 :
    after Cert.KernelIdeal.Gen.hostOps1 VK (𝕜 Cert.KernelIdeal.main_v58) = Cert.Spec.row (VK (𝕜 Cert.KernelIdeal.main_arg15)) := by
  after_results_simp
  exact row_read _ _

theorem stage1_row59 :
    after Cert.KernelIdeal.Gen.hostOps1 VK (𝕜 Cert.KernelIdeal.main_v59) = Cert.Spec.row (VK (𝕜 Cert.KernelIdeal.main_arg16)) := by
  after_results_simp
  exact row_read _ _

theorem stage1_row60 :
    after Cert.KernelIdeal.Gen.hostOps1 VK (𝕜 Cert.KernelIdeal.main_v60) = Cert.Spec.row (VK (𝕜 Cert.KernelIdeal.main_arg17)) := by
  after_results_simp
  exact row_read _ _

theorem stage1 (hy : VK (𝕜 Cert.KernelIdeal.main_v30) = VR (𝕣 Cert.ReferenceIdeal.main_v30))
    (h3 : VK (𝕜 Cert.KernelIdeal.main_arg3) = VR (𝕣 Cert.ReferenceIdeal.main_arg3))
    (h17 : VK (𝕜 Cert.KernelIdeal.main_arg17) = VR (𝕣 Cert.ReferenceIdeal.main_arg17))
    (hc : VK (𝕜 Cert.KernelIdeal.main_v15) = cntR (VR (𝕣 Cert.ReferenceIdeal.main_arg3))) :
    after Cert.KernelIdeal.Gen.hostOps1 VK (𝕜 Cert.KernelIdeal.main_v37) = after rc2 VR (𝕣 Cert.ReferenceIdeal.main_v41)
    ∧ after Cert.KernelIdeal.Gen.hostOps1 VK (𝕜 Cert.KernelIdeal.main_v56) = after rc2 VR (𝕣 Cert.ReferenceIdeal.main_v64)
    ∧ (∀ e : Fin 100000, (after Cert.KernelIdeal.Gen.hostOps1 VK (𝕜 Cert.KernelIdeal.main_v57) : IVec Cert.KernelIdeal.S100000x1 32) (ix2 e 0)
          = (VK (𝕜 Cert.KernelIdeal.main_arg3) : IVec Cert.KernelIdeal.S100000 32) (ix1 e))
    ∧ after Cert.KernelIdeal.Gen.hostOps1 VK (𝕜 Cert.KernelIdeal.main_v58) = Cert.Spec.row (VK (𝕜 Cert.KernelIdeal.main_arg15))
    ∧ after Cert.KernelIdeal.Gen.hostOps1 VK (𝕜 Cert.KernelIdeal.main_v59) = Cert.Spec.row (VK (𝕜 Cert.KernelIdeal.main_arg16))
    ∧ after Cert.KernelIdeal.Gen.hostOps1 VK (𝕜 Cert.KernelIdeal.main_v60) = Cert.Spec.row (VK (𝕜 Cert.KernelIdeal.main_arg17)) :=
  ⟨stage1_mean VK VR hy h3 hc, stage1_var VK VR hy h3 h17 hc, stage1_col VK, stage1_row58 VK, stage1_row59 VK, stage1_row60 VK⟩

theorem stage3_mean (hy : VK (𝕜 Cert.KernelIdeal.main_v76) = VR (𝕣 Cert.ReferenceIdeal.main_v105))
    (h3 : VK (𝕜 Cert.KernelIdeal.main_arg3) = VR (𝕣 Cert.ReferenceIdeal.main_arg3))
    (hc : VK (𝕜 Cert.KernelIdeal.main_v15) = cntR (VR (𝕣 Cert.ReferenceIdeal.main_arg3))) :
    after Cert.KernelIdeal.Gen.hostOps3 VK (𝕜 Cert.KernelIdeal.main_v83) = after rc6 VR (𝕣 Cert.ReferenceIdeal.main_v116) := by
  after_results_simp
  rw [hy, h3, hc]
  unfold cntR
  rfl

theorem stage3_var (hy : VK (𝕜 Cert.KernelIdeal.main_v76) = VR (𝕣 Cert.ReferenceIdeal.main_v105))
    (h3 : VK (𝕜 Cert.KernelIdeal.main_arg3) = VR (𝕣 Cert.ReferenceIdeal.main_arg3))
    (h20 : VK (𝕜 Cert.KernelIdeal.main_arg20) = VR (𝕣 Cert.ReferenceIdeal.main_arg20))
    (hc : VK (𝕜 Cert.KernelIdeal.main_v15) = cntR (VR (𝕣 Cert.ReferenceIdeal.main_arg3))) :
    after Cert.KernelIdeal.Gen.hostOps3 VK (𝕜 Cert.KernelIdeal.main_v102) = after rc6 VR (𝕣 Cert.ReferenceIdeal.main_v139) := by
  after_results_simp
  rw [hy, h3, h20, hc]
  unfold cntR
  rfl

theorem stage3_col (e : Fin 100000) :
    (after Cert.KernelIdeal.Gen.hostOps3 VK (𝕜 Cert.KernelIdeal.main_v103) : IVec Cert.KernelIdeal.S100000x1 32) (ix2 e 0)
      = (VK (𝕜 Cert.KernelIdeal.main_arg3) : IVec Cert.KernelIdeal.S100000 32) (ix1 e) := by
  after_results_simp
  exact col_read _ _ e

theorem stage3_row104 :
    after Cert.KernelIdeal.Gen.hostOps3 VK (𝕜 Cert.KernelIdeal.main_v104) = Cert.Spec.row (VK (𝕜 Cert.KernelIdeal.main_arg18)) := by
  after_results_simp
  exact row_read _ _

theorem stage3_row105 :
    after Cert.KernelIdeal.Gen.hostOps3 VK (𝕜 Cert.KernelIdeal.main_v105) = Cert.Spec.row (VK (𝕜 Cert.KernelIdeal.main_arg19)) := by
  after_results_simp
  exact row_read _ _

theorem stage3_row106 :
    after Cert.KernelIdeal.Gen.hostOps3 VK (𝕜 Cert.KernelIdeal.main_v106) = Cert.Spec.row (VK (𝕜 Cert.KernelIdeal.main_arg20)) := by
  after_results_simp
  exact row_read _ _

theorem stage3 (hy : VK (𝕜 Cert.KernelIdeal.main_v76) = VR (𝕣 Cert.ReferenceIdeal.main_v105))
    (h3 : VK (𝕜 Cert.KernelIdeal.main_arg3) = VR (𝕣 Cert.ReferenceIdeal.main_arg3))
    (h20 : VK (𝕜 Cert.KernelIdeal.main_arg20) = VR (𝕣 Cert.ReferenceIdeal.main_arg20))
    (hc : VK (𝕜 Cert.KernelIdeal.main_v15) = cntR (VR (𝕣 Cert.ReferenceIdeal.main_arg3))) :
    after Cert.KernelIdeal.Gen.hostOps3 VK (𝕜 Cert.KernelIdeal.main_v83) = after rc6 VR (𝕣 Cert.ReferenceIdeal.main_v116)
    ∧ after Cert.KernelIdeal.Gen.hostOps3 VK (𝕜 Cert.KernelIdeal.main_v102) = after rc6 VR (𝕣 Cert.ReferenceIdeal.main_v139)
    ∧ (∀ e : Fin 100000, (after Cert.KernelIdeal.Gen.hostOps3 VK (𝕜 Cert.KernelIdeal.main_v103) : IVec Cert.KernelIdeal.S100000x1 32) (ix2 e 0)
          = (VK (𝕜 Cert.KernelIdeal.main_arg3) : IVec Cert.KernelIdeal.S100000 32) (ix1 e))
    ∧ after Cert.KernelIdeal.Gen.hostOps3 VK (𝕜 Cert.KernelIdeal.main_v104) = Cert.Spec.row (VK (𝕜 Cert.KernelIdeal.main_arg18))
    ∧ after Cert.KernelIdeal.Gen.hostOps3 VK (𝕜 Cert.KernelIdeal.main_v105) = Cert.Spec.row (VK (𝕜 Cert.KernelIdeal.main_arg19))
    ∧ after Cert.KernelIdeal.Gen.hostOps3 VK (𝕜 Cert.KernelIdeal.main_v106) = Cert.Spec.row (VK (𝕜 Cert.KernelIdeal.main_arg20)) :=
  ⟨stage3_mean VK VR hy h3 hc, stage3_var VK VR hy h3 h20 hc, stage3_col VK, stage3_row104 VK, stage3_row105 VK, stage3_row106 VK⟩

end Rel

end Cert.Stages

end
-- ==== Proof.Stage24.lean ====
import proofs.«411421_j14293651161727_1_alg».proof.Proof.StageDefs
import Idealize.ShloMosaic.Lib.ValueLayout

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

local notation "𝕜" b => (Proc.devRef (τ := Cert.KernelIdeal.τ) (sig := Cert.KernelIdeal.sig) Proc.tc b)
local notation "𝕣" b => (Proc.devRef (τ := Cert.ReferenceIdeal.τ) (sig := Cert.ReferenceIdeal.sig) Proc.tc b)

section Rel
variable (VK : Valuation Cert.KernelIdeal.τ Cert.KernelIdeal.sig (Elt Ideal)) (VR : Valuation Cert.ReferenceIdeal.τ Cert.ReferenceIdeal.sig (Elt Ideal))

set_option maxHeartbeats 2000000 in
theorem stage2 (hx : VK (𝕜 Cert.KernelIdeal.main_v61) = VR (𝕣 Cert.ReferenceIdeal.main_v86))
    (h1 : VK (𝕜 Cert.KernelIdeal.main_v1) = VR (𝕣 Cert.ReferenceIdeal.main_v1))
    (h3 : VK (𝕜 Cert.KernelIdeal.main_v3) = VR (𝕣 Cert.ReferenceIdeal.main_v3))
    (h4 : VK (𝕜 Cert.KernelIdeal.main_v4) = VR (𝕣 Cert.ReferenceIdeal.main_v4)) :
    after Cert.KernelIdeal.Gen.hostOps2 VK (𝕜 Cert.KernelIdeal.main_v74) = after rc4 VR (𝕣 Cert.ReferenceIdeal.main_v99)
    ∧ after Cert.KernelIdeal.Gen.hostOps2 VK (𝕜 Cert.KernelIdeal.main_v75) = Cert.Spec.row (VK (𝕜 Cert.KernelIdeal.main_arg10)) := by
  refine ⟨?_, ?_⟩
  ·

    after_results
    rw [hx, h1, h3, h4]
    rfl
  ·
    after_results
    funext j
    rw [eq_ix2 j]
    unfold Cert.Spec.row
    exact shapeCast_a_1a_apply _ _ _ _

set_option maxHeartbeats 2000000 in
theorem stage4 (hx : VK (𝕜 Cert.KernelIdeal.main_v107) = VR (𝕣 Cert.ReferenceIdeal.main_v161))
    (h1 : VK (𝕜 Cert.KernelIdeal.main_v1) = VR (𝕣 Cert.ReferenceIdeal.main_v1))
    (h3 : VK (𝕜 Cert.KernelIdeal.main_v3) = VR (𝕣 Cert.ReferenceIdeal.main_v3))
    (h4 : VK (𝕜 Cert.KernelIdeal.main_v4) = VR (𝕣 Cert.ReferenceIdeal.main_v4)) :
    after Cert.KernelIdeal.Gen.hostOps4 VK (𝕜 Cert.KernelIdeal.main_v120) = after rc8 VR (𝕣 Cert.ReferenceIdeal.main_v174)
    ∧ after Cert.KernelIdeal.Gen.hostOps4 VK (𝕜 Cert.KernelIdeal.main_v121) = Cert.Spec.row (VK (𝕜 Cert.KernelIdeal.main_arg13)) := by
  refine ⟨?_, ?_⟩
  ·
    after_results
    rw [hx, h1, h3, h4]
    rfl
  ·
    after_results
    funext j
    rw [eq_ix2 j]
    unfold Cert.Spec.row
    exact shapeCast_a_1a_apply _ _ _ _

end Rel

end Cert.Stages

end
-- ==== Proof.ConvK.lean ====
import proofs.«411421_j14293651161727_1_alg».proof.Proof.Gen.KernelIdeal.Frame
import proofs.«411421_j14293651161727_1_alg».proof.Proof.Spec
import Idealize.ShloMosaic.Lib.Pipeline.Value
import Idealize.ShloMosaic.Lib.StackMember

noncomputable section

namespace Cert.KernelIdeal.Hand

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl

theorem idx2_ext {R C : Nat} {i i' : (⟨2, ![R, C]⟩ : Shape).Idx} (h0 : (i 0).val = (i' 0).val)
    (h1 : (i 1).val = (i' 1).val) : i = i' :=
  funext fun a => Fin.ext (by match a with | ⟨0, _⟩ => exact h0 | ⟨1, _⟩ => exact h1)

/-- A plain matrix product into the zero accumulator is the sum over the contracted axis. -/
theorem mm_apply {m k n : Nat} (a : FVec Ideal ⟨2, ![m, k]⟩ .bf16) (b : FVec Ideal ⟨2, ![k, n]⟩ .bf16)
    (i : (⟨2, ![m, n]⟩ : Shape).Idx) :
    matmul (DotDims.plain m k n) none a b (constant ⟨2, ![m, n]⟩ .f32 0x00000000#32) i
      = ∑ c : Fin k, a (ix2 (i 0) c) * b (ix2 c (i 1)) := by
  rw [matmul_zero_eq_dotGeneral]
  conv_lhs => rw [eq_ix2 i]
  exact StackMember.dotGeneral_plain_apply none a b (i 0) (i 1)

/-- On blocks that hold row `I 0` of the arrays, the two products into zero plus the bias row are the dense layer at `I`. -/
theorem pay_conv {N m k n : Nat} {d : DotDims ⟨2, ![m, k]⟩ ⟨2, ![k, n]⟩ ⟨2, ![m, n]⟩}
    {hs : (⟨2, ![m, k]⟩ : Shape).ShapeCasts ⟨2, ![m, k]⟩} {hs' : (⟨2, ![1, n]⟩ : Shape).ShapeCasts ⟨2, ![1, n]⟩}
    {hl : FTy.bf16.bits < FTy.f32.bits} {hb : (⟨2, ![1, n]⟩ : Shape).Broadcasts ⟨2, ![m, n]⟩}
    {x0 x1 : Vec Ideal ⟨2, ![m, k]⟩ .f32} {x2 x4 : Vec Ideal ⟨2, ![k, n]⟩ .f32} {x3 : Vec Ideal ⟨2, ![1, n]⟩ .f32}
    (A X : Cert.Spec.M N k) (Wr Wt : Cert.Spec.M k n) (B : Cert.Spec.M 1 n)
    (i : (⟨2, ![m, n]⟩ : Shape).Idx) (I : (⟨2, ![N, n]⟩ : Shape).Idx) (hq : (I 1).val = (i 1).val)
    (h0 : ∀ c, x0 (ix2 (i 0) c) = A (ix2 (I 0) c)) (h1 : ∀ c, x1 (ix2 (i 0) c) = X (ix2 (I 0) c))
    (h2 : x2 = Wr) (h4 : x4 = Wt) (h3 : x3 = B) (hd : d = DotDims.plain m k n) :
    (addf (addf (matmul d none (truncf .bf16 (shapeCast ⟨2, ![m, k]⟩ x0 hs) hl) (truncf .bf16 x2 hl) (constant ⟨2, ![m, n]⟩ .f32 0x00000000#32))
        (matmul d none (truncf .bf16 (shapeCast ⟨2, ![m, k]⟩ x1 hs) hl) (truncf .bf16 x4 hl) (constant ⟨2, ![m, n]⟩ .f32 0x00000000#32)))
      (broadcastTo ⟨2, ![m, n]⟩ (shapeCast ⟨2, ![1, n]⟩ x3 hs') hb) : FVec Ideal ⟨2, ![m, n]⟩ .f32) i = Cert.Spec.conv A X Wr B Wt I := by
  subst hd h2 h4 h3
  have hq' : I 1 = i 1 := Fin.ext hq
  rw [addf_apply, addf_apply, mm_apply, mm_apply, broadcastTo_apply _ hb i (ix2 0 (i 1)) (fun a => by
    match a with
    | ⟨0, _⟩ => rfl
    | ⟨1, _⟩ =>
      show (i 1).val = if n = 1 then 0 else (i 1).val
      have := idx2_lt1 i
      split <;> omega)]
  simp only [truncf_apply, shapeCast_self, h0, h1]
  rw [← hq']
  rfl

/-- Row `r` lies in the 5000-row block `r / 5000`, whose one column block holds every column. -/
theorem mem_rowBlock {N n : Nat} {ix sz size : Fin 2 → Nat} {inb} (i : (⟨2, ![N, n]⟩ : Shape).Idx)
    (h0 : ix 0 = (i 0).val / 5000) (h1 : ix 1 = 0) (hz : sz 0 = 5000) (hs0 : size 0 = 5000) (hs1 : size 1 = n) :
    i ∈ (Rect.unit (s := ⟨2, ![N, n]⟩) (fun a => ix a * sz a) size inb).set := by
  rw [Rect.mem_set_unit]
  intro a
  have := idx2_lt1 i
  match a with
  | ⟨0, _⟩ => show ix 0 * sz 0 ≤ (i 0).val ∧ (i 0).val < ix 0 * sz 0 + size 0; rw [h0, hz, hs0]; omega
  | ⟨1, _⟩ => show ix 1 * sz 1 ≤ (i 1).val ∧ (i 1).val < ix 1 * sz 1 + size 1; rw [h1, Nat.zero_mul, hs1]; omega

theorem row_ext {x x' s p : Nat} (h : x = x') : x * s + 1 * p = x' * s + 1 * p := by rw [h]

variable (V : (c : Dev nD) → (b : Ref sig .tc) → Buf (Elt Ideal) ((c : Thread nD τ).loc b))

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem conv0_value (c : Dev nD) :
    (dat0 (F := Ideal) V c).arrAt 5 cfg0.N
      = Cert.Spec.conv (V c main_v28) (V c main_v11) (V c main_arg6) (V c main_v29) (V c main_arg8) := by
  refine (dat0 (F := Ideal) V c).arrAt_eq_of_cover 5 _ (fun t _ => ?_) fun (i : S100000x64.Idx) => ?_
  · obtain ⟨a0, a1, b0, b1, c0, c1, d0, d1, e0, e1, o0, o1⟩ := idx_facts0 t
    show (cfg0.win 5).cut (grid0.coords t) ((dat0 V c).after 5 t) = _
    rw [after0_5]
    unfold out0_5
    rw [View.canon_unit_zero hz2]
    simp only [View.ld_unit_zero (S := S5000x16) hz2, View.ld_unit_zero (S := S16x64) hz2, View.ld_unit_zero (S := S1x64) hz2]
    funext j
    rw [View.read_apply]
    show k0_pay1 (F := Ideal) _ _ _ _ _ _ = Cert.Spec.conv _ _ _ _ _ _
    exact pay_conv (V c main_v28) (V c main_v11) (V c main_arg6) (V c main_arg8) (V c main_v29) _ _
      (win0_5.rect_emb_val_of_index_zero t 1 o1 j)
      (fun k => congrArg (V c main_v28) (idx2_ext
        (row_ext (a0.trans o0.symm))
        (win0_0.rect_emb_val_of_index_zero t 1 a1 _)))
      (fun k => congrArg (V c main_v11) (idx2_ext
        (row_ext (b0.trans o0.symm))
        (win0_1.rect_emb_val_of_index_zero t 1 b1 _)))
      (funext fun y => congrArg (V c main_arg6) (idx2_ext (win0_2.rect_emb_val_of_index_zero t 0 c0 y) (win0_2.rect_emb_val_of_index_zero t 1 c1 y)))
      (funext fun y => congrArg (V c main_arg8) (idx2_ext (win0_4.rect_emb_val_of_index_zero t 0 e0 y) (win0_4.rect_emb_val_of_index_zero t 1 e1 y)))
      (funext fun y => congrArg (V c main_v29) (idx2_ext (win0_3.rect_emb_val_of_index_zero t 0 d0 y) (win0_3.rect_emb_val_of_index_zero t 1 d1 y)))
      rfl
  · have hi := idx2_lt0 i
    obtain ⟨t, ht⟩ : ∃ t : Fin cfg0.N, t.val = (i 0).val / 5000 :=
      ⟨⟨(i 0).val / 5000, by rw [show cfg0.N = 20 from N_0]; omega⟩, rfl⟩
    obtain ⟨-, -, -, -, -, -, -, -, -, -, o0, o1⟩ := idx_facts0 t
    refine ⟨t, flush0_5 t, ?_⟩
    show i ∈ ((View.whole main_v30).slice (win0_5.rect t)).set
    rw [View.set_slice_whole]
    exact mem_rowBlock i (o0.trans ht) o1 rfl rfl rfl

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem conv2_value (c : Dev nD) :
    (dat2 (F := Ideal) V c).arrAt 5 cfg2.N
      = Cert.Spec.conv (V c main_v74) (V c main_v61) (V c main_arg9) (V c main_v75) (V c main_arg11) := by
  refine (dat2 (F := Ideal) V c).arrAt_eq_of_cover 5 _ (fun t _ => ?_) fun (i : S100000x128.Idx) => ?_
  · obtain ⟨a0, a1, b0, b1, c0, c1, d0, d1, e0, e1, o0, o1⟩ := idx_facts2 t
    show (cfg2.win 5).cut (grid2.coords t) ((dat2 V c).after 5 t) = _
    rw [after2_5]
    unfold out2_5
    rw [View.canon_unit_zero hz2]
    simp only [View.ld_unit_zero (S := S5000x64) hz2, View.ld_unit_zero (S := S64x128) hz2, View.ld_unit_zero (S := S1x128) hz2]
    funext j
    rw [View.read_apply]
    show k2_pay1 (F := Ideal) _ _ _ _ _ _ = Cert.Spec.conv _ _ _ _ _ _
    exact pay_conv (V c main_v74) (V c main_v61) (V c main_arg9) (V c main_arg11) (V c main_v75) _ _
      (win2_5.rect_emb_val_of_index_zero t 1 o1 j)
      (fun k => congrArg (V c main_v74) (idx2_ext
        (row_ext (a0.trans o0.symm))
        (win2_0.rect_emb_val_of_index_zero t 1 a1 _)))
      (fun k => congrArg (V c main_v61) (idx2_ext
        (row_ext (b0.trans o0.symm))
        (win2_1.rect_emb_val_of_index_zero t 1 b1 _)))
      (funext fun y => congrArg (V c main_arg9) (idx2_ext (win2_2.rect_emb_val_of_index_zero t 0 c0 y) (win2_2.rect_emb_val_of_index_zero t 1 c1 y)))
      (funext fun y => congrArg (V c main_arg11) (idx2_ext (win2_4.rect_emb_val_of_index_zero t 0 e0 y) (win2_4.rect_emb_val_of_index_zero t 1 e1 y)))
      (funext fun y => congrArg (V c main_v75) (idx2_ext (win2_3.rect_emb_val_of_index_zero t 0 d0 y) (win2_3.rect_emb_val_of_index_zero t 1 d1 y)))
      rfl
  · have hi := idx2_lt0 i
    obtain ⟨t, ht⟩ : ∃ t : Fin cfg2.N, t.val = (i 0).val / 5000 :=
      ⟨⟨(i 0).val / 5000, by rw [show cfg2.N = 20 from N_2]; omega⟩, rfl⟩
    obtain ⟨-, -, -, -, -, -, -, -, -, -, o0, o1⟩ := idx_facts2 t
    refine ⟨t, flush2_5 t, ?_⟩
    show i ∈ ((View.whole main_v76).slice (win2_5.rect t)).set
    rw [View.set_slice_whole]
    exact mem_rowBlock i (o0.trans ht) o1 rfl rfl rfl

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem conv4_value (c : Dev nD) :
    (dat4 (F := Ideal) V c).arrAt 5 cfg4.N
      = Cert.Spec.conv (V c main_v120) (V c main_v107) (V c main_arg12) (V c main_v121) (V c main_arg14) := by
  refine (dat4 (F := Ideal) V c).arrAt_eq_of_cover 5 _ (fun t _ => ?_) fun (i : S100000x256.Idx) => ?_
  · obtain ⟨a0, a1, b0, b1, c0, c1, d0, d1, e0, e1, o0, o1⟩ := idx_facts4 t
    show (cfg4.win 5).cut (grid4.coords t) ((dat4 V c).after 5 t) = _
    rw [after4_5]
    unfold out4_5
    rw [View.canon_unit_zero hz2]
    simp only [View.ld_unit_zero (S := S5000x128) hz2, View.ld_unit_zero (S := S128x256) hz2, View.ld_unit_zero (S := S1x256) hz2]
    funext j
    rw [View.read_apply]
    show k4_pay1 (F := Ideal) _ _ _ _ _ _ = Cert.Spec.conv _ _ _ _ _ _
    exact pay_conv (V c main_v120) (V c main_v107) (V c main_arg12) (V c main_arg14) (V c main_v121) _ _
      (win4_5.rect_emb_val_of_index_zero t 1 o1 j)
      (fun k => congrArg (V c main_v120) (idx2_ext
        (row_ext (a0.trans o0.symm))
        (win4_0.rect_emb_val_of_index_zero t 1 a1 _)))
      (fun k => congrArg (V c main_v107) (idx2_ext
        (row_ext (b0.trans o0.symm))
        (win4_1.rect_emb_val_of_index_zero t 1 b1 _)))
      (funext fun y => congrArg (V c main_arg12) (idx2_ext (win4_2.rect_emb_val_of_index_zero t 0 c0 y) (win4_2.rect_emb_val_of_index_zero t 1 c1 y)))
      (funext fun y => congrArg (V c main_arg14) (idx2_ext (win4_4.rect_emb_val_of_index_zero t 0 e0 y) (win4_4.rect_emb_val_of_index_zero t 1 e1 y)))
      (funext fun y => congrArg (V c main_v121) (idx2_ext (win4_3.rect_emb_val_of_index_zero t 0 d0 y) (win4_3.rect_emb_val_of_index_zero t 1 d1 y)))
      rfl
  · have hi := idx2_lt0 i
    obtain ⟨t, ht⟩ : ∃ t : Fin cfg4.N, t.val = (i 0).val / 5000 :=
      ⟨⟨(i 0).val / 5000, by rw [show cfg4.N = 20 from N_4]; omega⟩, rfl⟩
    obtain ⟨-, -, -, -, -, -, -, -, -, -, o0, o1⟩ := idx_facts4 t
    refine ⟨t, flush4_5 t, ?_⟩
    show i ∈ ((View.whole main_v122).slice (win4_5.rect t)).set
    rw [View.set_slice_whole]
    exact mem_rowBlock i (o0.trans ht) o1 rfl rfl rfl

end Cert.KernelIdeal.Hand

end
-- ==== Proof.NormK.lean ====
import proofs.«411421_j14293651161727_1_alg».proof.Proof.Gen.KernelIdeal.Frame
import proofs.«411421_j14293651161727_1_alg».proof.Proof.Spec
import Idealize.ShloMosaic.Lib.Pipeline.Value
import Idealize.ShloMosaic.Lib.ValueLayout
import Idealize.ShloMosaic.PureOps.Ideal.Laws
import Idealize.ShloMosaic.Lib.StackMember

noncomputable section

namespace Cert.KernelIdeal.Hand

open Cert.KernelIdeal Cert.KernelIdeal.Gen Idealize.ShloMosaic Idealize.ShloMosaic.TcCoe Idealize.SL.Sem

namespace NormK

open Idealize.ShloMosaic.ValueIdx

theorem word_of_toInt (x : BitVec 32) (r : Fin 100) (hx : x.toInt = (r.val : ℤ)) : x = BitVec.ofNat 32 r.val := by
  apply BitVec.eq_of_toNat_eq
  have h1 := BitVec.toInt_eq_toNat_cond x
  have h2 := x.isLt
  have hr := r.isLt
  rw [BitVec.toNat_ofNat]
  rw [hx] at h1
  split at h1 <;> omega

-- The word of graph `r` compared with the word of column `k`, as a float, is `1` at `k = r` and `0` elsewhere.
theorem onehot_entry (x : BitVec 32) (r k : Fin 100) (hx : x.toInt = (r.val : ℤ)) :
    FloatOps.sitofp (F := Ideal) .f32 ((IntOp.cmpi .eq x (BitVec.ofNat 32 k.val)).setWidth 32) = if k = r then (1 : EReal) else 0 := by
  rw [word_of_toInt x r hx]
  have hr := r.isLt
  have hk := k.isLt
  by_cases h : k = r
  · subst h
    rw [if_pos rfl]
    show (((((BitVec.ofBool (BitVec.ofNat 32 k.val == BitVec.ofNat 32 k.val)).setWidth 32).toInt : ℤ) : ℝ) : EReal) = 1
    rw [beq_self_eq_true, show ((BitVec.ofBool true).setWidth 32).toInt = 1 from by decide]
    norm_num
  · rw [if_neg h]
    have hne : (BitVec.ofNat 32 r.val == BitVec.ofNat 32 k.val) = false := by
      rw [beq_eq_false_iff_ne]
      intro he
      have := congrArg BitVec.toNat he
      simp only [BitVec.toNat_ofNat] at this
      apply h
      apply Fin.ext
      omega
    show (((((BitVec.ofBool (BitVec.ofNat 32 r.val == BitVec.ofNat 32 k.val)).setWidth 32).toInt : ℤ) : ℝ) : EReal) = 0
    rw [hne, show ((BitVec.ofBool false).setWidth 32).toInt = 0 from by decide]
    norm_num

def onehot (v2 : Vec Ideal S5000x1 .i32) : FVec Ideal S5000x100 .f32 :=
  sitofp .f32 (extui 32 (cmpi .eq (broadcastTo S5000x100 (shapeCast S5000x1 v2 shapeCasts_S5000x1_S5000x1) broadcasts_S5000x1_S5000x100) (iota .tc S5000x100 32 [1] iota_S5000x100_d1_w32)) natLt_1_32)

theorem onehot_apply (v2 : Vec Ideal S5000x1 .i32) (p : Fin 5000) (k r : Fin 100)
    (hr : ((v2 : IVec S5000x1 32) (ix2 p 0)).toInt = (r.val : ℤ)) :
    onehot v2 (ix2 p k) = if k = r then (1 : EReal) else 0 := by
  have e5 : broadcastTo S5000x100 (shapeCast S5000x1 v2 shapeCasts_S5000x1_S5000x1) broadcasts_S5000x1_S5000x100 (ix2 p k) = (v2 : IVec S5000x1 32) (ix2 p 0) := by
    rw [shapeCast_self]
    refine broadcastTo_apply _ _ (ix2 p k) (ix2 p 0) fun a => ?_
    match a with
    | ⟨0, _⟩ => rfl
    | ⟨1, _⟩ => rfl
  have e4 : iota .tc S5000x100 32 [1] iota_S5000x100_d1_w32 (ix2 p k) = BitVec.ofNat 32 k.val :=
    iota_single_apply .tc S5000x100 32 1 iota_S5000x100_d1_w32 (ix2 p k)
  show FloatOps.sitofp (F := Ideal) .f32 ((IntOp.cmpi .eq (broadcastTo S5000x100 (shapeCast S5000x1 v2 shapeCasts_S5000x1_S5000x1) broadcasts_S5000x1_S5000x100 (ix2 p k)) (iota .tc S5000x100 32 [1] iota_S5000x100_d1_w32 (ix2 p k))).setWidth 32) = _
  rw [e5, e4]
  exact onehot_entry _ r k hr

theorem rsqrt_apply {s : Shape} {φ : FTy} (a : FVec Ideal s φ) (i : s.Idx) : rsqrt a i = Ideal.rsqrt (a i) := rfl

theorem hz : (![0, 0] : Fin 2 → Nat) = fun _ => 0 := funext fun a => by fin_cases a <;> rfl

theorem ix2_of_val {a b : Nat} (i : (⟨2, ![a, b]⟩ : Shape).Idx) (x : Fin a) (y : Fin b) (h0 : (i 0).val = x.val) (h1 : (i 1).val = y.val) :
    i = ix2 x y :=
  funext fun k => Fin.ext (by
    match k with
    | ⟨0, _⟩ => exact h0
    | ⟨1, _⟩ => exact h1)

-- Coordinates `k·B + 1·u` with `k` the block number: in row block `m` that is row `m·B + u`, in block zero it is `u`.
theorem ix2_of_blk {a b : Nat} (i : (⟨2, ![a, b]⟩ : Shape).Idx) (x : Fin a) (y : Fin b) {k0 k1 B0 B1 u w m : Nat}
    (z : k0 = m ∧ k1 = 0) (h0 : (i 0).val = k0 * B0 + 1 * u) (h1 : (i 1).val = k1 * B1 + 1 * w)
    (hx : x.val = m * B0 + u) (hy : y.val = w) : i = ix2 x y :=
  ix2_of_val i x y (by rw [h0, z.1, hx, Nat.one_mul]) (by rw [h1, z.2, hy, Nat.zero_mul, Nat.zero_add, Nat.one_mul])

theorem ix2_of_zero {a b : Nat} (i j : (⟨2, ![a, b]⟩ : Shape).Idx) {k0 k1 B0 B1 : Nat} (z : k0 = 0 ∧ k1 = 0)
    (h0 : (i 0).val = k0 * B0 + 1 * (j 0).val) (h1 : (i 1).val = k1 * B1 + 1 * (j 1).val) : i = j :=
  (ix2_of_blk i _ _ z h0 h1 (by rw [Nat.zero_mul, Nat.zero_add]) rfl).trans (eq_ix2 j).symm

section Width

variable {d : Nat}

-- Every term of the sum but the one at the row's own graph is `0 · x = 0`, so the product reads the table's row `r`.
theorem onehot_matmul (D : DotDims S5000x100 ⟨2, ![100, d]⟩ ⟨2, ![5000, d]⟩) (hD : D = DotDims.plain 5000 100 d)
    (v2 : Vec Ideal S5000x1 .i32) (p : Fin 5000) (r : Fin 100) (hr : ((v2 : IVec S5000x1 32) (ix2 p 0)).toInt = (r.val : ℤ))
    (T : Vec Ideal ⟨2, ![100, d]⟩ .f32) (h : (⟨2, ![100, d]⟩ : Shape).ShapeCasts ⟨2, ![100, d]⟩) (q : Fin d) :
    matmul D none (onehot v2) (shapeCast ⟨2, ![100, d]⟩ T h : FVec Ideal ⟨2, ![100, d]⟩ .f32) (constant ⟨2, ![5000, d]⟩ .f32 0x00000000#32) (ix2 p q)
      = T (ix2 r q) := by
  subst hD
  rw [matmul_zero_eq_dotGeneral, StackMember.dotGeneral_plain_apply, shapeCast_self, Finset.sum_eq_single r]
  · rw [onehot_apply v2 p r r hr, if_pos rfl, one_mul]
  · intro k _ hk
    rw [onehot_apply v2 p k r hr, if_neg hk, zero_mul]
  · intro h; exact absurd (Finset.mem_univ r) h

theorem row_apply (v : Vec Ideal ⟨2, ![1, d]⟩ .f32) (h : (⟨2, ![1, d]⟩ : Shape).ShapeCasts ⟨2, ![1, d]⟩)
    (h' : (⟨2, ![1, d]⟩ : Shape).Broadcasts ⟨2, ![5000, d]⟩) (p : Fin 5000) (q : Fin d) :
    broadcastTo ⟨2, ![5000, d]⟩ (shapeCast ⟨2, ![1, d]⟩ v h) h' (ix2 p q) = v (ix2 0 q) :=
  (broadcastTo_1b_ab_apply _ _ p q).trans (congrFun (shapeCast_self v _) _)

-- The normalise-and-rectify formula over the seven elements read is the specification at node `e`, feature `q`.
theorem normAct_of_reads (Y : Cert.Spec.M 100000 d) (rowOf : Fin 100000 → Fin 100) (mean var : Cert.Spec.M 100 d) (g b a : Cert.Spec.M 1 d)
    (e : Fin 100000) (q : Fin d) {y m v g' b' a' : EReal} (h0 : y = Y (ix2 e q)) (h2 : m = mean (ix2 (rowOf e) q))
    (h3 : v = var (ix2 (rowOf e) q)) (h4 : g' = g (ix2 0 q)) (h5 : b' = b (ix2 0 q)) (h6 : a' = a (ix2 0 q)) :
    Cert.Spec.lrelu (g' * (y - a' * m) * Ideal.rsqrt (v + Cert.Spec.eps) + b') = Cert.Spec.normAct Y rowOf mean var g b a (ix2 e q) := by
  rw [h0, h2, h3, h4, h5, h6]
  rfl

-- Row `p` of row block `t` is node `5000 t + p`.
theorem node_of {N : Nat} (hN : N = 20) (t : Fin N) (p : Fin 5000) : ∃ e : Fin 100000, e.val = t.val * 5000 + p.val :=
  ⟨⟨t.val * 5000 + p.val, by have := t.isLt; have := p.isLt; omega⟩, rfl⟩

-- Node `i` lies in row block `i / 5000`, at column block zero.
theorem cover_rows (i : (⟨2, ![100000, d]⟩ : Shape).Idx) {N : Nat} (hN : N = 20) : ∃ t : Fin N, t.val = (i 0).val / 5000 := by
  have h0 := idx2_lt0 i
  exact ⟨⟨(i 0).val / 5000, by omega⟩, rfl⟩

theorem in_block (i : (⟨2, ![100000, d]⟩ : Shape).Idx) {t x0 x1 : Nat} (ht : t = (i 0).val / 5000) (z : x0 = t ∧ x1 = 0) :
    (x0 * 5000 ≤ (i 0).val ∧ (i 0).val < x0 * 5000 + 5000) ∧ (x1 * d ≤ (i 1).val ∧ (i 1).val < x1 * d + d) := by
  have h := idx2_lt1 i
  obtain ⟨h0, h1⟩ := z
  subst h0 h1 ht
  rw [Nat.zero_mul, Nat.zero_add]
  omega

end Width

section Region1

variable (V : (c : Dev nD) → (b : Ref sig .tc) → Buf (Elt Ideal) ((c : Thread nD τ).loc b))

theorem pay1_apply (v0 : Vec Ideal S5000x64 .f32) (v2 : Vec Ideal S5000x1 .i32) (v9 v12 : Vec Ideal S100x64 .f32)
    (v15 v23 v28 : Vec Ideal S1x64 .f32) (p : Fin 5000) (q : Fin 64) (r : Fin 100)
    (hr : ((v2 : IVec S5000x1 32) (ix2 p 0)).toInt = (r.val : ℤ)) :
    k1_pay1 (F := Ideal) v0 v2 v9 v12 v15 v23 v28 (ix2 p q)
      = Cert.Spec.lrelu (v23 (ix2 0 q) * (v0 (ix2 p q) - v15 (ix2 0 q) * v9 (ix2 r q)) * Ideal.rsqrt (v12 (ix2 r q) + Cert.Spec.eps) + v28 (ix2 0 q)) := by
  have H := onehot_matmul dot_S5000x100_S100x64_S5000x64_1_0_0_1_n_n rfl v2 p r hr
  unfold onehot at H
  unfold k1_pay1
  simp only [select_apply, cmpf_apply, addf_apply, mulf_apply, subf_apply, broadcast_apply, rsqrt_apply]
  rw [H v9, H v12, row_apply v15, row_apply v23, row_apply v28, shapeCast_self v0]
  rfl

theorem idx1_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

theorem iblk1_0_apply (c : Dev nD) (t : Fin cfg1.N) (p : Fin 5000) (q : Fin 64) (e : Fin 100000) (he : e.val = t.val * 5000 + p.val) :
    (iblk1 V c 0 t : Vec Ideal S5000x64 .f32) (ix2 p q) = (V c main_v30 : S100000x64.Idx → EReal) (ix2 e q) :=
  congrArg (V c main_v30 : S100000x64.Idx → EReal) (ix2_of_blk _ _ _ (idx1_facts t).1 rfl rfl he rfl)

theorem iblk1_1_apply (c : Dev nD) (t : Fin cfg1.N) (p : Fin 5000) (e : Fin 100000) (he : e.val = t.val * 5000 + p.val) :
    (iblk1 V c 1 t : IVec S5000x1 32) (ix2 p 0) = (V c main_v57 : IVec S100000x1 32) (ix2 e 0) :=
  congrArg (V c main_v57 : IVec S100000x1 32) (ix2_of_blk _ _ _ (idx1_facts t).2.1 rfl rfl he rfl)

theorem iblk1_2_eq (c : Dev nD) (t : Fin cfg1.N) : (iblk1 V c 2 t : Vec Ideal S100x64 .f32) = V c main_v37 :=
  funext fun j => congrArg (V c main_v37 : S100x64.Idx → EReal) (ix2_of_zero _ j (idx1_facts t).2.2.1 rfl rfl)

theorem iblk1_3_eq (c : Dev nD) (t : Fin cfg1.N) : (iblk1 V c 3 t : Vec Ideal S100x64 .f32) = V c main_v56 :=
  funext fun j => congrArg (V c main_v56 : S100x64.Idx → EReal) (ix2_of_zero _ j (idx1_facts t).2.2.2.1 rfl rfl)

theorem iblk1_4_eq (c : Dev nD) (t : Fin cfg1.N) : (iblk1 V c 4 t : Vec Ideal S1x64 .f32) = V c main_v58 :=
  funext fun j => congrArg (V c main_v58 : S1x64.Idx → EReal) (ix2_of_zero _ j (idx1_facts t).2.2.2.2.1 rfl rfl)

theorem iblk1_5_eq (c : Dev nD) (t : Fin cfg1.N) : (iblk1 V c 5 t : Vec Ideal S1x64 .f32) = V c main_v59 :=
  funext fun j => congrArg (V c main_v59 : S1x64.Idx → EReal) (ix2_of_zero _ j (idx1_facts t).2.2.2.2.2.1 rfl rfl)

theorem iblk1_6_eq (c : Dev nD) (t : Fin cfg1.N) : (iblk1 V c 6 t : Vec Ideal S1x64 .f32) = V c main_v60 :=
  funext fun j => congrArg (V c main_v60 : S1x64.Idx → EReal) (ix2_of_zero _ j (idx1_facts t).2.2.2.2.2.2.1 rfl rfl)

-- Row `p` of block `t` is node `5000 t + p`, so the block point `t` produces is block `t` of the specification's array.
theorem flushed1_eq (c : Dev nD) (rowOf : Fin 100000 → Fin 100)
    (hrow : ∀ e : Fin 100000, ((V c main_v57 : IVec S100000x1 32) (ix2 e 0)).toInt = ((rowOf e).val : ℤ)) (t : Fin cfg1.N) :
    (dat1 (F := Ideal) V c).flushed 7 t
      = ((cfg1.win 7).blk t).view.read (Elt Ideal)
          (Cert.Spec.normAct (V c main_v30) rowOf (V c main_v37) (V c main_v56) (V c main_v58) (V c main_v59) (V c main_v60)) := by
  show (cfg1.win 7).cut (grid1.coords t) ((dat1 V c).after 7 t) = _
  rw [after1_7]
  unfold out1_7
  rw [View.canon_unit_zero hz]
  simp only [View.ld_unit_zero (S := S5000x64) hz, View.ld_unit_zero (S := S5000x1) hz, View.ld_unit_zero (S := S100x64) hz,
    View.ld_unit_zero (S := S1x64) hz]
  funext j
  obtain ⟨p, q, rfl⟩ : ∃ (p : Fin 5000) (q : Fin 64), j = ix2 p q := ⟨j 0, j 1, eq_ix2 j⟩
  obtain ⟨e, he⟩ := node_of (N := cfg1.N) N_1 t p
  have hemb : ((cfg1.win 7).blk t).view.emb (ix2 p q) = (ix2 e q : S100000x64.Idx) :=
    ix2_of_blk _ _ _ (idx1_facts t).2.2.2.2.2.2.2 rfl rfl he rfl
  rw [View.read_apply]
  show k1_pay1 (F := Ideal) _ _ _ _ _ _ _ (ix2 p q) = Cert.Spec.normAct _ _ _ _ _ _ _ (((cfg1.win 7).blk t).view.emb (ix2 p q))
  rw [hemb]
  exact (pay1_apply _ _ _ _ _ _ _ p q (rowOf e) ((congrArg BitVec.toInt (iblk1_1_apply V c t p e he)).trans (hrow e))).trans
    (normAct_of_reads _ rowOf _ _ _ _ _ e q (iblk1_0_apply V c t p q e he) (congrFun (iblk1_2_eq V c t) _)
      (congrFun (iblk1_3_eq V c t) _) (congrFun (iblk1_4_eq V c t) _) (congrFun (iblk1_5_eq V c t) _) (congrFun (iblk1_6_eq V c t) _))

end Region1

section Region3

variable (V : (c : Dev nD) → (b : Ref sig .tc) → Buf (Elt Ideal) ((c : Thread nD τ).loc b))

theorem pay3_apply (v0 : Vec Ideal S5000x128 .f32) (v2 : Vec Ideal S5000x1 .i32) (v9 v12 : Vec Ideal S100x128 .f32)
    (v15 v23 v28 : Vec Ideal S1x128 .f32) (p : Fin 5000) (q : Fin 128) (r : Fin 100)
    (hr : ((v2 : IVec S5000x1 32) (ix2 p 0)).toInt = (r.val : ℤ)) :
    k3_pay1 (F := Ideal) v0 v2 v9 v12 v15 v23 v28 (ix2 p q)
      = Cert.Spec.lrelu (v23 (ix2 0 q) * (v0 (ix2 p q) - v15 (ix2 0 q) * v9 (ix2 r q)) * Ideal.rsqrt (v12 (ix2 r q) + Cert.Spec.eps) + v28 (ix2 0 q)) := by
  have H := onehot_matmul dot_S5000x100_S100x128_S5000x128_1_0_0_1_n_n rfl v2 p r hr
  unfold onehot at H
  unfold k3_pay1
  simp only [select_apply, cmpf_apply, addf_apply, mulf_apply, subf_apply, broadcast_apply, rsqrt_apply]
  rw [H v9, H v12, row_apply v15, row_apply v23, row_apply v28, shapeCast_self v0]
  rfl

theorem idx3_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

theorem iblk3_0_apply (c : Dev nD) (t : Fin cfg3.N) (p : Fin 5000) (q : Fin 128) (e : Fin 100000) (he : e.val = t.val * 5000 + p.val) :
    (iblk3 V c 0 t : Vec Ideal S5000x128 .f32) (ix2 p q) = (V c main_v76 : S100000x128.Idx → EReal) (ix2 e q) :=
  congrArg (V c main_v76 : S100000x128.Idx → EReal) (ix2_of_blk _ _ _ (idx3_facts t).1 rfl rfl he rfl)

theorem iblk3_1_apply (c : Dev nD) (t : Fin cfg3.N) (p : Fin 5000) (e : Fin 100000) (he : e.val = t.val * 5000 + p.val) :
    (iblk3 V c 1 t : IVec S5000x1 32) (ix2 p 0) = (V c main_v103 : IVec S100000x1 32) (ix2 e 0) :=
  congrArg (V c main_v103 : IVec S100000x1 32) (ix2_of_blk _ _ _ (idx3_facts t).2.1 rfl rfl he rfl)

theorem iblk3_2_eq (c : Dev nD) (t : Fin cfg3.N) : (iblk3 V c 2 t : Vec Ideal S100x128 .f32) = V c main_v83 :=
  funext fun j => congrArg (V c main_v83 : S100x128.Idx → EReal) (ix2_of_zero _ j (idx3_facts t).2.2.1 rfl rfl)

theorem iblk3_3_eq (c : Dev nD) (t : Fin cfg3.N) : (iblk3 V c 3 t : Vec Ideal S100x128 .f32) = V c main_v102 :=
  funext fun j => congrArg (V c main_v102 : S100x128.Idx → EReal) (ix2_of_zero _ j (idx3_facts t).2.2.2.1 rfl rfl)

theorem iblk3_4_eq (c : Dev nD) (t : Fin cfg3.N) : (iblk3 V c 4 t : Vec Ideal S1x128 .f32) = V c main_v104 :=
  funext fun j => congrArg (V c main_v104 : S1x128.Idx → EReal) (ix2_of_zero _ j (idx3_facts t).2.2.2.2.1 rfl rfl)

theorem iblk3_5_eq (c : Dev nD) (t : Fin cfg3.N) : (iblk3 V c 5 t : Vec Ideal S1x128 .f32) = V c main_v105 :=
  funext fun j => congrArg (V c main_v105 : S1x128.Idx → EReal) (ix2_of_zero _ j (idx3_facts t).2.2.2.2.2.1 rfl rfl)

theorem iblk3_6_eq (c : Dev nD) (t : Fin cfg3.N) : (iblk3 V c 6 t : Vec Ideal S1x128 .f32) = V c main_v106 :=
  funext fun j => congrArg (V c main_v106 : S1x128.Idx → EReal) (ix2_of_zero _ j (idx3_facts t).2.2.2.2.2.2.1 rfl rfl)

-- Row `p` of block `t` is node `5000 t + p`, so the block point `t` produces is block `t` of the specification's array.
theorem flushed3_eq (c : Dev nD) (rowOf : Fin 100000 → Fin 100)
    (hrow : ∀ e : Fin 100000, ((V c main_v103 : IVec S100000x1 32) (ix2 e 0)).toInt = ((rowOf e).val : ℤ)) (t : Fin cfg3.N) :
    (dat3 (F := Ideal) V c).flushed 7 t
      = ((cfg3.win 7).blk t).view.read (Elt Ideal)
          (Cert.Spec.normAct (V c main_v76) rowOf (V c main_v83) (V c main_v102) (V c main_v104) (V c main_v105) (V c main_v106)) := by
  show (cfg3.win 7).cut (grid3.coords t) ((dat3 V c).after 7 t) = _
  rw [after3_7]
  unfold out3_7
  rw [View.canon_unit_zero hz]
  simp only [View.ld_unit_zero (S := S5000x128) hz, View.ld_unit_zero (S := S5000x1) hz, View.ld_unit_zero (S := S100x128) hz,
    View.ld_unit_zero (S := S1x128) hz]
  funext j
  obtain ⟨p, q, rfl⟩ : ∃ (p : Fin 5000) (q : Fin 128), j = ix2 p q := ⟨j 0, j 1, eq_ix2 j⟩
  obtain ⟨e, he⟩ := node_of (N := cfg3.N) N_3 t p
  have hemb : ((cfg3.win 7).blk t).view.emb (ix2 p q) = (ix2 e q : S100000x128.Idx) :=
    ix2_of_blk _ _ _ (idx3_facts t).2.2.2.2.2.2.2 rfl rfl he rfl
  rw [View.read_apply]
  show k3_pay1 (F := Ideal) _ _ _ _ _ _ _ (ix2 p q) = Cert.Spec.normAct _ _ _ _ _ _ _ (((cfg3.win 7).blk t).view.emb (ix2 p q))
  rw [hemb]
  exact (pay3_apply _ _ _ _ _ _ _ p q (rowOf e) ((congrArg BitVec.toInt (iblk3_1_apply V c t p e he)).trans (hrow e))).trans
    (normAct_of_reads _ rowOf _ _ _ _ _ e q (iblk3_0_apply V c t p q e he) (congrFun (iblk3_2_eq V c t) _)
      (congrFun (iblk3_3_eq V c t) _) (congrFun (iblk3_4_eq V c t) _) (congrFun (iblk3_5_eq V c t) _) (congrFun (iblk3_6_eq V c t) _))

end Region3

end NormK

open Idealize.ShloMosaic.ValueIdx

variable (V : (c : Dev nD) → (b : Ref sig .tc) → Buf (Elt Ideal) ((c : Thread nD τ).loc b))

theorem norm1_value (c : Dev nD) (rowOf : Fin 100000 → Fin 100)
    (hrow : ∀ e : Fin 100000, ((V c main_v57 : IVec S100000x1 32) (ValueIdx.ix2 e 0)).toInt = ((rowOf e).val : ℤ)) :
    (dat1 (F := Ideal) V c).arrAt 7 cfg1.N
      = Cert.Spec.normAct (V c main_v30) rowOf (V c main_v37) (V c main_v56) (V c main_v58) (V c main_v59) (V c main_v60) :=
  (dat1 (F := Ideal) V c).arrAt_eq_of_cover 7 _ (fun t _ => NormK.flushed1_eq V c rowOf hrow t) fun i => by
      obtain ⟨t, ht⟩ := NormK.cover_rows (d := 64) (N := cfg1.N) i N_1
      refine ⟨t, flush1_7 t, ?_⟩
      show i ∈ ((View.whole main_v61).slice (win1_7.rect t)).set
      rw [View.set_slice_whole, Rect.mem_set_unit]
      have B := NormK.in_block (d := 64) i ht (NormK.idx1_facts t).2.2.2.2.2.2.2
      intro a
      match a with
      | ⟨0, _⟩ => exact B.1
      | ⟨1, _⟩ => exact B.2

theorem norm3_value (c : Dev nD) (rowOf : Fin 100000 → Fin 100)
    (hrow : ∀ e : Fin 100000, ((V c main_v103 : IVec S100000x1 32) (ValueIdx.ix2 e 0)).toInt = ((rowOf e).val : ℤ)) :
    (dat3 (F := Ideal) V c).arrAt 7 cfg3.N
      = Cert.Spec.normAct (V c main_v76) rowOf (V c main_v83) (V c main_v102) (V c main_v104) (V c main_v105) (V c main_v106) :=
  (dat3 (F := Ideal) V c).arrAt_eq_of_cover 7 _ (fun t _ => NormK.flushed3_eq V c rowOf hrow t) fun i => by
      obtain ⟨t, ht⟩ := NormK.cover_rows (d := 128) (N := cfg3.N) i N_3
      refine ⟨t, flush3_7 t, ?_⟩
      show i ∈ ((View.whole main_v107).slice (win3_7.rect t)).set
      rw [View.set_slice_whole, Rect.mem_set_unit]
      have B := NormK.in_block (d := 128) i ht (NormK.idx3_facts t).2.2.2.2.2.2.2
      intro a
      match a with
      | ⟨0, _⟩ => exact B.1
      | ⟨1, _⟩ => exact B.2

end Cert.KernelIdeal.Hand

end
-- ==== Proof.LibIndexOps.lean ====
import Idealize.ShloMosaic.PureOps.Ideal
import Idealize.ShloMosaic.Lib.ValueIdx
import Idealize.ShloMosaic.Lib.StableHlo.Predicate

noncomputable section

namespace Idealize.ShloMosaic.IndexOps

open Idealize.ShloMosaic Idealize.ShloMosaic.ValueIdx

private theorem getElem_of_eq_singleton {β : Type} (l : List β) (a : β) (hl : l = [a]) (i : Nat) (h : i < l.length) :
    l[i] = a := by
  subst hl
  have h0 : i = 0 := by simpa using h
  subst h0
  rfl

theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (k : Fin C) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>

    apply Fin.ext
    show d.start (ix2 e k) idx 0 + d.batchCoord (ix2 e k) 0 + d.offCoord (ix2 e k) 0 = min (idx (ix2 e 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    have hbd : d.batchDims = [0] := by
      show (⟨2, ![n, C]⟩ : Shape).kept d.offsetDims = [0]
      rw [hoff]; rfl
    have hsi : d.siIdx (ix2 e k) ⟨d.startIndexMap.idxOf 0, List.idxOf_lt_length_iff.2 hm⟩ = ix2 e 0 := by
      funext b
      match b with
      | ⟨0, _⟩ =>

        unfold GatherDims.siIdx
        rw [dif_neg (by rw [hivd]; simp)]
        unfold GatherDims.siCoord
        apply Fin.ext
        simp only [Fin.val_cast]
        have key : ∀ X : Fin 2, X = 0 → ((ix2 e k : (⟨2, ![n, C]⟩ : Shape).Idx) X).val = e.val := by
          intro X hX; subst hX; rfl
        exact key _ (getElem_of_eq_singleton _ _ hbd _ _)
      | ⟨1, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>

    apply Fin.ext
    show d.start (ix2 e k) idx 1 + d.batchCoord (ix2 e k) 1 + d.offCoord (ix2 e k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 2, X = 1 → ((ix2 e k : (⟨2, ![n, C]⟩ : Shape).Idx) X).val = k.val := by
      intro X hX; subst hX; rfl
    exact key _ (getElem_of_eq_singleton _ _ hoff _ _)

section Rows
variable {N C n w : Nat} (d : ScatterDims ⟨2, ![N, C]⟩ ⟨2, ![n, 1]⟩ ⟨2, ![n, C]⟩)

private theorem rows_siIdx (huw : d.updateWindowDims = [1]) (hivd : d.indexVectorDim = 1)
    (e : Fin n) (k' : Fin C) (c : Fin d.scatterDimsToOperandDims.length) (hc : c.val = 0) :
    d.siIdx (ix2 e k') c = ix2 e 0 := by
  have hus : d.uScatter = [0] := by
    show (⟨2, ![n, C]⟩ : Shape).kept d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    have key : ∀ X : Fin 2, X = 0 → ((ix2 e k' : (⟨2, ![n, C]⟩ : Shape).Idx) X).val = e.val := by
      intro X hX; subst hX; rfl
    exact key _ (getElem_of_eq_singleton _ _ hus _ _)
  | ⟨1, _⟩ =>
    unfold ScatterDims.siIdx
    rw [dif_pos (by rw [hivd])]
    apply Fin.ext
    exact hc

private theorem rows_start0 (huw : d.updateWindowDims = [1]) (hsd : d.scatterDimsToOperandDims = [0])
    (hivd : d.indexVectorDim = 1) (idx : IVec ⟨2, ![n, 1]⟩ w) (e : Fin n) (k' : Fin C) :
    d.start (ix2 e k') idx 0 = (idx (ix2 e 0)).toInt := by
  have hm : (0 : Fin 2) ∈ d.scatterDimsToOperandDims := by rw [hsd]; exact List.mem_singleton.mpr rfl
  unfold ScatterDims.start
  rw [dif_pos hm, rows_siIdx d huw hivd e k' _ (by show List.idxOf (0 : Fin 2) d.scatterDimsToOperandDims = 0; rw [hsd]; simp)]

private theorem rows_start1 (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; simp)]

private theorem rows_window0 (hiw : d.insertedWindowDims = [0]) (j : (⟨2, ![n, C]⟩ : Shape).Idx) : d.window j 0 = 0 := by
  unfold ScatterDims.window
  rw [dif_neg (by simp [ScatterDims.sKept, Shape.kept, hiw])]

private theorem rows_window1 (huw : d.updateWindowDims = [1]) (hiw : d.insertedWindowDims = [0]) (e : Fin n) (k' : Fin C) :
    d.window (ix2 e k') 1 = k'.val := by
  unfold ScatterDims.window
  rw [dif_pos (by simp [ScatterDims.sKept, Shape.kept, hiw, List.mem_filter, List.mem_finRange])]
  have key : ∀ X : Fin 2, X = 1 → ((ix2 e k' : (⟨2, ![n, C]⟩ : Shape).Idx) X).val = k'.val := by
    intro X hX; subst hX; rfl
  exact key _ (getElem_of_eq_singleton _ _ huw _ _)

private theorem rows_resultIdx_iff (huw : d.updateWindowDims = [1]) (hiw : d.insertedWindowDims = [0])
    (hsd : d.scatterDimsToOperandDims = [0]) (hivd : d.indexVectorDim = 1) (idx : IVec ⟨2, ![n, 1]⟩ w)
    (e : Fin n) (k' : Fin C) (i : Fin N) (k : Fin C) :
    d.resultIdx? (ix2 e k') idx = some (ix2 i k) ↔ (idx (ix2 e 0)).toInt = (i.val : ℤ) ∧ k' = k := by
  have hs0 := rows_start0 d huw hsd hivd idx e k'
  have hs1 := rows_start1 d hsd idx (ix2 e k')
  have hw0 := rows_window0 d hiw (ix2 e k')
  have hw1 := rows_window1 d huw hiw e k'
  have hi := i.isLt
  have hk' := k'.isLt
  constructor
  · intro h
    unfold ScatterDims.resultIdx? at h
    split at h
    · next hr =>
      have hf := Option.some.inj h
      have h0 := congrArg Fin.val (congrFun hf 0)
      have h1 := congrArg Fin.val (congrFun hf 1)
      have hr0 := (hr 0).1
      change (d.start (ix2 e k') idx 0 + (d.window (ix2 e k') 0 : ℤ)).toNat = i.val at h0
      change (d.start (ix2 e k') idx 1 + (d.window (ix2 e k') 1 : ℤ)).toNat = k.val at h1
      rw [hs0, hw0] at h0 hr0
      rw [hs1, hw1] at h1
      refine ⟨by omega, Fin.ext (by omega)⟩
    · exact absurd h (by simp)
  · rintro ⟨hi', rfl⟩
    have hr : ∀ a, 0 ≤ d.start (ix2 e k') idx a + d.window (ix2 e k') a ∧
        d.start (ix2 e k') idx a + d.window (ix2 e k') a < (⟨2, ![N, C]⟩ : Shape).size a := by
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hs0, hw0, hi']; omega
      | ⟨1, _⟩ =>
        show 0 ≤ d.start (ix2 e k') idx 1 + (d.window (ix2 e k') 1 : ℤ) ∧ d.start (ix2 e k') idx 1 + (d.window (ix2 e k') 1 : ℤ) < (C : ℤ)
        rw [hs1, hw1]; omega
    unfold ScatterDims.resultIdx?
    rw [dif_pos hr]
    congr 1
    funext a
    match a with
    | ⟨0, _⟩ =>
      apply Fin.ext
      show (d.start (ix2 e k') idx 0 + (d.window (ix2 e k') 0 : ℤ)).toNat = i.val
      rw [hs0, hw0, hi']; omega
    | ⟨1, _⟩ =>
      apply Fin.ext
      show (d.start (ix2 e k') idx 1 + (d.window (ix2 e k') 1 : ℤ)).toNat = k'.val
      rw [hs1, hw1]; omega

end Rows

open Classical in

theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (k : Fin C) :
    Ideal.hostScatterAdd d x idx upd (ix2 i k)
      = x (ix2 i k) + ∑ e ∈ Finset.univ.filter (fun e : Fin n => (idx (ix2 e 0)).toInt = (i.val : ℤ)), upd (ix2 e k) := by
  unfold Ideal.hostScatterAdd
  congr 1
  symm

  refine Finset.sum_bij (fun e _ => ix2 e k) ?_ ?_ ?_ ?_
  · intro e he
    rw [Finset.mem_filter] at he ⊢
    exact ⟨Finset.mem_univ _, (rows_resultIdx_iff d huw hiw hsd hivd idx e k i k).2 ⟨he.2, rfl⟩⟩
  · intro e _ e' _ h
    exact congrFun h 0
  · intro j hj
    rw [Finset.mem_filter] at hj
    obtain ⟨e, k', rfl⟩ : ∃ e k', j = ix2 e k' := ⟨j 0, j 1, eq_ix2 j⟩
    obtain ⟨he, rfl⟩ := (rows_resultIdx_iff d huw hiw hsd hivd idx e k' i k).1 hj.2
    exact ⟨e, Finset.mem_filter.2 ⟨Finset.mem_univ _, he⟩, rfl⟩
  · intro e _
    rfl

end Idealize.ShloMosaic.IndexOps

end
-- ==== Proof.NormR.lean ====
import proofs.«411421_j14293651161727_1_alg».proof.Proof.StageDefs
import proofs.«411421_j14293651161727_1_alg».proof.Proof.LibIndexOps
import Idealize.ShloMosaic.PureOps.Ideal.Laws
import Idealize.ShloMosaic.Lib.IdealHost
import Idealize.ShloMosaic.Lib.Pipeline.Value

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

local notation "𝕜" b => (Proc.devRef (τ := Cert.KernelIdeal.τ) (sig := Cert.KernelIdeal.sig) Proc.tc b)
local notation "𝕣" b => (Proc.devRef (τ := Cert.ReferenceIdeal.τ) (sig := Cert.ReferenceIdeal.sig) Proc.tc b)

private theorem sq_nonneg_ereal (x : EReal) : 0 ≤ x * x := by
  rcases le_total 0 x with h | h
  · exact EReal.mul_nonneg_iff.2 (Or.inl ⟨h, h⟩)
  · exact EReal.mul_nonneg_iff.2 (Or.inr ⟨h, h⟩)

private theorem div_nonneg_of_one_le {u w : EReal} (hu : 0 ≤ u) (hw : 1 ≤ w) : 0 ≤ Ideal.div u w := by
  have hw0 : w ≠ 0 := fun e => by rw [e] at hw; exact absurd hw (by norm_num)
  unfold Ideal.div; rw [if_neg hw0]
  exact EReal.mul_nonneg hu (EReal.inv_nonneg_of_nonneg (le_trans zero_le_one hw))

private theorem mul_rsqrt_eq_div_sqrt (a z : EReal) (hz : 0 < z) : a * Ideal.rsqrt z = Ideal.div a (Ideal.sqrt z) := by
  induction z using EReal.rec with
  | bot => exact absurd hz (by simp)
  | top =>
    show a * 0 = Ideal.div a ⊤
    unfold Ideal.div
    rw [if_neg (by simp), EReal.inv_top]
  | coe r =>
    have hr : 0 < r := EReal.coe_pos.1 hz
    have hs : 0 < Real.sqrt r := Real.sqrt_pos.2 hr
    show a * (if r < 0 then ⊥ else if r = 0 then ⊤ else (((Real.sqrt r)⁻¹ : ℝ) : EReal))
      = Ideal.div a (if r < 0 then ⊥ else (Real.sqrt r : EReal))
    rw [if_neg (not_lt.2 hr.le), if_neg hr.ne', if_neg (not_lt.2 hr.le)]
    unfold Ideal.div
    rw [if_neg (by exact_mod_cast hs.ne'), EReal.coe_inv]

private theorem eps_pos : 0 < Cert.Spec.eps := by
  unfold Cert.Spec.eps
  simp [Ideal.ofBits, Ideal.ieee, -EReal.coe_mul]

private theorem add_eps_pos {v : EReal} (hv : 0 ≤ v) : 0 < v + Cert.Spec.eps := by
  rw [add_comm]; exact EReal.add_pos_of_pos_of_nonneg eps_pos hv

private theorem cmpi_slt_zero_of_nonneg (x : BitVec 32) (h : 0 ≤ x.toInt) : IntOp.cmpi .slt x 0#32 = 0#1 := by
  have hs : x.slt 0#32 = false := by
    unfold BitVec.slt
    simpa using h
  show BitVec.ofBool (x.slt 0#32) = 0#1
  rw [hs]; rfl

section Generic
variable {N C n : Nat}

private abbrev wrapIdx (b0 : (⟨0, ![]⟩ : Shape).BroadcastsInDim ⟨1, ![n]⟩ ![])
    (b1 : (⟨1, ![n]⟩ : Shape).BroadcastsInDim ⟨2, ![n, 1]⟩ ![0]) (bt : IVec ⟨1, ![n]⟩ 32) (K : BitVec 32) : IVec ⟨2, ![n, 1]⟩ 32 :=
  broadcastInDim ⟨2, ![n, 1]⟩ ![0] b1
    (select (cmpi .slt bt (broadcastInDim ⟨1, ![n]⟩ ![] b0 (constantI ⟨0, ![]⟩ 32 0#32)))
      (addi bt (broadcastInDim ⟨1, ![n]⟩ ![] b0 (constantI ⟨0, ![]⟩ 32 K))) bt)

private theorem wrapIdx_apply (b0 : (⟨0, ![]⟩ : Shape).BroadcastsInDim ⟨1, ![n]⟩ ![])
    (b1 : (⟨1, ![n]⟩ : Shape).BroadcastsInDim ⟨2, ![n, 1]⟩ ![0]) (bt : IVec ⟨1, ![n]⟩ 32) (K : BitVec 32) (e : Fin n)
    (he : 0 ≤ (bt (ix1 e)).toInt) : wrapIdx b0 b1 bt K (ix2 e 0) = bt (ix1 e) := by
  refine (broadcastInDim_apply _ _ _ (ix2 e 0) (ix1 e) ?_).trans ?_
  · intro a
    obtain rfl : a = 0 := Subsingleton.elim _ _
    show e.val = if n = 1 then 0 else e.val
    have := e.isLt
    split <;> omega
  · show Scalar.select (IntOp.cmpi .slt (bt (ix1 e)) 0#32) _ (bt (ix1 e)) = bt (ix1 e)
    rw [cmpi_slt_zero_of_nonneg _ he, select_zero]

private theorem gather_row (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → EReal) (idx : IVec ⟨2, ![n, 1]⟩ 32) (e : Fin n) (k : Fin C) (r : Fin N)
    (h : (idx (ix2 e 0)).toInt = (r.val : ℤ)) : Host.gather d x idx (ix2 e k) = x (ix2 r k) := by
  have hN : 0 < N := Fin.pos r
  rw [IndexOps.gather_rows_apply d hoff hcoll hob hsb hsim hivd hss hN x idx e k]
  congr 2
  apply Fin.ext
  show min (idx (ix2 e 0)).toInt.toNat (N - 1) = r.val
  rw [h]
  have := r.isLt
  omega

theorem rowBcast_apply (b2 : (⟨1, ![C]⟩ : Shape).BroadcastsInDim ⟨2, ![1, C]⟩ ![1])
    (b3 : (⟨2, ![1, C]⟩ : Shape).BroadcastsInDim ⟨2, ![n, C]⟩ ![0, 1]) (v : (⟨1, ![C]⟩ : Shape).Idx → EReal) (e : Fin n) (k : Fin C) :
    broadcastInDim ⟨2, ![n, C]⟩ ![0, 1] b3 (broadcastInDim ⟨2, ![1, C]⟩ ![1] b2 v) (ix2 e k) = v (ix1 k) := by
  refine (broadcastInDim_apply _ _ _ (ix2 e k) (ix2 (0 : Fin 1) k) ?_).trans ?_
  · intro a
    have := k.isLt
    match a with
    | ⟨0, _⟩ => rfl
    | ⟨1, _⟩ =>
      show k.val = if C = 1 then 0 else k.val
      split <;> omega
  · refine broadcastInDim_apply _ _ _ (ix2 (0 : Fin 1) k) (ix1 k) ?_
    intro a
    obtain rfl : a = 0 := Subsingleton.elim _ _
    have := k.isLt
    show k.val = if C = 1 then 0 else k.val
    split <;> omega

private theorem var_nonneg (sd : ScatterDims ⟨2, ![N, C]⟩ ⟨2, ![n, 1]⟩ ⟨2, ![n, C]⟩)
    (huw : sd.updateWindowDims = [1]) (hiw : sd.insertedWindowDims = [0]) (hsd : sd.scatterDimsToOperandDims = [0])
    (hivd : sd.indexVectorDim = 1)
    (c0 : (⟨0, ![]⟩ : Shape).BroadcastsInDim ⟨2, ![N, C]⟩ ![])
    (c1 : (⟨2, ![N, 1]⟩ : Shape).BroadcastsInDim ⟨2, ![N, C]⟩ ![0, 1])
    (c2 : (⟨0, ![]⟩ : Shape).BroadcastsInDim ⟨2, ![N, 1]⟩ ![])
    (idx : IVec ⟨2, ![n, 1]⟩ 32) (X : FVec Ideal ⟨2, ![n, C]⟩ .f32) (cnt : FVec Ideal ⟨2, ![N, 1]⟩ .f32) (r : Fin N) (k : Fin C) :
    0 ≤ Host.divf (Host.scatterAdd sd (broadcastInDim ⟨2, ![N, C]⟩ ![] c0 (constant (F := Ideal) ⟨0, ![]⟩ .f32 0x00000000#32)) idx (mulf X X))
        (broadcastInDim ⟨2, ![N, C]⟩ ![0, 1] c1
          (maximumf cnt (broadcastInDim ⟨2, ![N, 1]⟩ ![] c2 (constant (F := Ideal) ⟨0, ![]⟩ .f32 0x3F800000#32)))) (ix2 r k) := by
  show 0 ≤ Ideal.div (Ideal.hostScatterAdd sd _ idx (mulf X X) (ix2 r k)) _
  rw [IndexOps.scatterAdd_rows_apply sd huw hiw hsd hivd _ idx (mulf X X) r k,
    broadcastInDim_apply _ c1 _ (ix2 r k) (ix2 r (0 : Fin 1)) (by
      intro a
      have := r.isLt
      match a with
      | ⟨0, _⟩ =>
        show r.val = if N = 1 then 0 else r.val
        split <;> omega
      | ⟨1, _⟩ => rfl)]
  apply div_nonneg_of_one_le
  · apply add_nonneg
    · show (0 : EReal) ≤ Ideal.ofBits .f32 0x00000000#32
      rw [Ideal.ofBits_zero_f32]
    · exact Finset.sum_nonneg fun e _ => sq_nonneg_ereal _
  · show (1 : EReal) ≤ max _ (Ideal.ofBits .f32 0x3F800000#32)
    rw [Ideal.ofBits_one_f32]
    exact le_max_right _ _

end Generic

section Point
variable {N C n : Nat}

private theorem normAct_ops (gd : GatherDims ⟨2, ![N, C]⟩ ⟨2, ![n, 1]⟩ ⟨2, ![n, C]⟩)
    (hoff : gd.offsetDims = [1]) (hcoll : gd.collapsedSliceDims = [0]) (hob : gd.operandBatchingDims = [])
    (hsb : gd.startIndicesBatchingDims = []) (hsim : gd.startIndexMap = [0]) (hivd : gd.indexVectorDim = 1)
    (hss : gd.sliceSizes = ![1, C])
    (b0 : (⟨0, ![]⟩ : Shape).BroadcastsInDim ⟨1, ![n]⟩ ![])
    (b1 : (⟨1, ![n]⟩ : Shape).BroadcastsInDim ⟨2, ![n, 1]⟩ ![0])
    (b2 : (⟨1, ![C]⟩ : Shape).BroadcastsInDim ⟨2, ![1, C]⟩ ![1])
    (b3 : (⟨2, ![1, C]⟩ : Shape).BroadcastsInDim ⟨2, ![n, C]⟩ ![0, 1])
    (b4 : (⟨0, ![]⟩ : Shape).BroadcastsInDim ⟨2, ![n, C]⟩ ![])
    (bt : IVec ⟨1, ![n]⟩ 32) (K : BitVec 32) (rowOf : Fin n → Fin N)
    (hrow : ∀ e : Fin n, (bt (ix1 e)).toInt = ((rowOf e).val : ℤ))
    (y xc : FVec Ideal ⟨2, ![n, C]⟩ .f32) (mean var : FVec Ideal ⟨2, ![N, C]⟩ .f32) (g b a : FVec Ideal ⟨1, ![C]⟩ .f32)
    (hxc : xc = subf y (mulf (broadcastInDim ⟨2, ![n, C]⟩ ![0, 1] b3 (broadcastInDim ⟨2, ![1, C]⟩ ![1] b2 a))
      (Host.gather gd mean (wrapIdx b0 b1 bt K))))
    (hvar : ∀ (r : Fin N) (k : Fin C), 0 ≤ var (ix2 r k))
    (nn : FVec Ideal ⟨2, ![n, C]⟩ .f32)
    (hnn : nn = addf (Host.divf (mulf (broadcastInDim ⟨2, ![n, C]⟩ ![0, 1] b3 (broadcastInDim ⟨2, ![1, C]⟩ ![1] b2 g)) xc)
        (Host.sqrt (addf (Host.gather gd var (wrapIdx b0 b1 bt K))
          (broadcastInDim ⟨2, ![n, C]⟩ ![] b4 (constant (F := Ideal) ⟨0, ![]⟩ .f32 0x3727C5AC#32)))))
      (broadcastInDim ⟨2, ![n, C]⟩ ![0, 1] b3 (broadcastInDim ⟨2, ![1, C]⟩ ![1] b2 b))) :
    select (cmpf .ogt nn (broadcastInDim ⟨2, ![n, C]⟩ ![] b4 (constant (F := Ideal) ⟨0, ![]⟩ .f32 0x00000000#32))) nn
        (mulf (broadcastInDim ⟨2, ![n, C]⟩ ![] b4 (constant (F := Ideal) ⟨0, ![]⟩ .f32 0x3C23D70A#32)) nn)
      = Cert.Spec.normAct y rowOf mean var (Cert.Spec.row g) (Cert.Spec.row b) (Cert.Spec.row a) := by
  funext j
  obtain ⟨e, k, rfl⟩ : ∃ e k, j = ix2 e k := ⟨j 0, j 1, eq_ix2 j⟩
  have hi : (wrapIdx b0 b1 bt K (ix2 e 0)).toInt = ((rowOf e).val : ℤ) := by
    rw [wrapIdx_apply b0 b1 bt K e (by rw [hrow e]; exact Int.natCast_nonneg _), hrow e]
  have hnn' : nn (ix2 e k)
      = Ideal.div (g (ix1 k) * (y (ix2 e k) - a (ix1 k) * mean (ix2 (rowOf e) k)))
          (Ideal.sqrt (var (ix2 (rowOf e) k) + Cert.Spec.eps)) + b (ix1 k) := by
    rw [hnn, hxc]
    show Ideal.div (broadcastInDim ⟨2, ![n, C]⟩ ![0, 1] b3 (broadcastInDim ⟨2, ![1, C]⟩ ![1] b2 g) (ix2 e k)
          * (y (ix2 e k) - broadcastInDim ⟨2, ![n, C]⟩ ![0, 1] b3 (broadcastInDim ⟨2, ![1, C]⟩ ![1] b2 a) (ix2 e k)
            * Host.gather gd mean (wrapIdx b0 b1 bt K) (ix2 e k)))
        (Ideal.sqrt (Host.gather gd var (wrapIdx b0 b1 bt K) (ix2 e k) + Cert.Spec.eps))
        + broadcastInDim ⟨2, ![n, C]⟩ ![0, 1] b3 (broadcastInDim ⟨2, ![1, C]⟩ ![1] b2 b) (ix2 e k) = _
    rw [rowBcast_apply b2 b3 g e k, rowBcast_apply b2 b3 a e k, rowBcast_apply b2 b3 b e k,
      gather_row gd hoff hcoll hob hsb hsim hivd hss mean _ e k (rowOf e) hi,
      gather_row gd hoff hcoll hob hsb hsim hivd hss var _ e k (rowOf e) hi]
  show Cert.Spec.lrelu (nn (ix2 e k))
    = Cert.Spec.lrelu (g (ix1 k) * (y (ix2 e k) - a (ix1 k) * mean (ix2 (rowOf e) k))
        * Ideal.rsqrt (var (ix2 (rowOf e) k) + Cert.Spec.eps) + b (ix1 k))
  rw [hnn', mul_rsqrt_eq_div_sqrt _ _ (add_eps_pos (hvar _ _))]

end Point

section Ref
open Cert.ReferenceIdeal
variable (V : Valuation τ sig (Elt Ideal))

set_option maxHeartbeats 4000000 in
theorem norm_ref_64 (rowOf : Fin 100000 → Fin 100)
    (hrow : ∀ e : Fin 100000, ((V (𝕣 main_arg3) : IVec S100000 32) (ix1 e)).toInt = ((rowOf e).val : ℤ)) :
    after rc3 (after rc2 V) (𝕣 main_v86)
      = Cert.Spec.normAct (V (𝕣 main_v30)) rowOf (after rc2 V (𝕣 main_v41)) (after rc2 V (𝕣 main_v64))
          (Cert.Spec.row (V (𝕣 main_arg15))) (Cert.Spec.row (V (𝕣 main_arg16))) (Cert.Spec.row (V (𝕣 main_arg17))) := by

  have h3 : after rc2 V (𝕣 main_arg3) = V (𝕣 main_arg3) := by after_results_simp
  have hg : after rc2 V (𝕣 main_arg15) = V (𝕣 main_arg15) := by after_results_simp
  have hb : after rc2 V (𝕣 main_arg16) = V (𝕣 main_arg16) := by after_results_simp

  have hx : @Eq (FVec Ideal S100000x64 .f32) (after rc2 V (𝕣 main_v52))
      (subf (V (𝕣 main_v30) : FVec Ideal S100000x64 .f32)
          (mulf (broadcastInDim S100000x64 ![0, 1] Gen.bcast_S1x64_S100000x64_0_1 (broadcastInDim S1x64 ![1] Gen.bcast_S64_S1x64_1 (V (𝕣 main_arg17) : FVec Ideal S64 .f32)))
            (Host.gather gather_S100x64_S100000x1_S100000x64_1_0_n_n_0_1_164 (after rc2 V (𝕣 main_v41) : FVec Ideal S100x64 .f32)
              (wrapIdx Gen.bcast_S_S100000 Gen.bcast_S100000_S100000x1_0 (V (𝕣 main_arg3) : IVec S100000 32) 100#32)))) := by
    after_results_simp

  have hvar : ∀ (r : Fin 100) (k : Fin 64), @LE.le EReal _ 0 ((after rc2 V (𝕣 main_v64) : FVec Ideal S100x64 .f32) (ix2 r k)) := by
    intro r k
    after_results_simp
    exact var_nonneg scatter_S100x64_S100000x1_S100000x64_1_0_0_1 rfl rfl rfl rfl _ _ _ _ _ _ r k
  generalize after rc2 V = W at *
  after_results_simp
  rw [h3, hg, hb]
  exact normAct_ops gather_S100x64_S100000x1_S100000x64_1_0_n_n_0_1_164 rfl rfl rfl rfl rfl rfl rfl
    Gen.bcast_S_S100000 Gen.bcast_S100000_S100000x1_0 Gen.bcast_S64_S1x64_1 Gen.bcast_S1x64_S100000x64_0_1 Gen.bcast_S_S100000x64
    (V (𝕣 main_arg3)) 100#32 rowOf hrow (V (𝕣 main_v30)) (W (𝕣 main_v52)) (W (𝕣 main_v41)) (W (𝕣 main_v64))
    (V (𝕣 main_arg15)) (V (𝕣 main_arg16)) (V (𝕣 main_arg17)) hx hvar _ rfl

set_option maxHeartbeats 4000000 in
theorem norm_ref_128 (rowOf : Fin 100000 → Fin 100)
    (hrow : ∀ e : Fin 100000, ((V (𝕣 main_arg3) : IVec S100000 32) (ix1 e)).toInt = ((rowOf e).val : ℤ)) :
    after rc7 (after rc6 V) (𝕣 main_v161)
      = Cert.Spec.normAct (V (𝕣 main_v105)) rowOf (after rc6 V (𝕣 main_v116)) (after rc6 V (𝕣 main_v139))
          (Cert.Spec.row (V (𝕣 main_arg18))) (Cert.Spec.row (V (𝕣 main_arg19))) (Cert.Spec.row (V (𝕣 main_arg20))) := by

  have h3 : after rc6 V (𝕣 main_arg3) = V (𝕣 main_arg3) := by after_results_simp
  have hg : after rc6 V (𝕣 main_arg18) = V (𝕣 main_arg18) := by after_results_simp
  have hb : after rc6 V (𝕣 main_arg19) = V (𝕣 main_arg19) := by after_results_simp

  have hx : @Eq (FVec Ideal S100000x128 .f32) (after rc6 V (𝕣 main_v127))
      (subf (V (𝕣 main_v105) : FVec Ideal S100000x128 .f32)
          (mulf (broadcastInDim S100000x128 ![0, 1] Gen.bcast_S1x128_S100000x128_0_1 (broadcastInDim S1x128 ![1] Gen.bcast_S128_S1x128_1 (V (𝕣 main_arg20) : FVec Ideal S128 .f32)))
            (Host.gather gather_S100x128_S100000x1_S100000x128_1_0_n_n_0_1_1128 (after rc6 V (𝕣 main_v116) : FVec Ideal S100x128 .f32)
              (wrapIdx Gen.bcast_S_S100000 Gen.bcast_S100000_S100000x1_0 (V (𝕣 main_arg3) : IVec S100000 32) 100#32)))) := by
    after_results_simp

  have hvar : ∀ (r : Fin 100) (k : Fin 128), @LE.le EReal _ 0 ((after rc6 V (𝕣 main_v139) : FVec Ideal S100x128 .f32) (ix2 r k)) := by
    intro r k
    after_results_simp
    exact var_nonneg scatter_S100x128_S100000x1_S100000x128_1_0_0_1 rfl rfl rfl rfl _ _ _ _ _ _ r k
  generalize after rc6 V = W at *
  after_results_simp
  rw [h3, hg, hb]
  exact normAct_ops gather_S100x128_S100000x1_S100000x128_1_0_n_n_0_1_1128 rfl rfl rfl rfl rfl rfl rfl
    Gen.bcast_S_S100000 Gen.bcast_S100000_S100000x1_0 Gen.bcast_S128_S1x128_1 Gen.bcast_S1x128_S100000x128_0_1 Gen.bcast_S_S100000x128
    (V (𝕣 main_arg3)) 100#32 rowOf hrow (V (𝕣 main_v105)) (W (𝕣 main_v127)) (W (𝕣 main_v116)) (W (𝕣 main_v139))
    (V (𝕣 main_arg18)) (V (𝕣 main_arg19)) (V (𝕣 main_arg20)) hx hvar _ rfl
end Ref

end Cert.Stages

end
-- ==== Proof.ConvR.lean ====
import proofs.«411421_j14293651161727_1_alg».proof.Proof.NormR
import Idealize.ShloMosaic.Lib.StackMember
import Idealize.ShloMosaic.Lib.Pipeline.Value

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc1 rc5 rc9)

local notation "𝕣" b => (Proc.devRef (τ := Cert.ReferenceIdeal.τ) (sig := Cert.ReferenceIdeal.sig) Proc.tc b)

section Ref
open Cert.ReferenceIdeal

variable {n din dout : Nat}

-- The reference adds the bias before the second product, the layer after it: addition commutes.
theorem conv_plain (h1 : (⟨1, ![dout]⟩ : Shape).BroadcastsInDim ⟨2, ![1, dout]⟩ ![1])
    (h2 : (⟨2, ![1, dout]⟩ : Shape).BroadcastsInDim ⟨2, ![n, dout]⟩ ![0, 1])
    (agg x : FVec Ideal ⟨2, ![n, din]⟩ .f32) (wrel wroot : FVec Ideal ⟨2, ![din, dout]⟩ .f32) (b : FVec Ideal ⟨1, ![dout]⟩ .f32) :
    addf (addf (Host.dotGeneral (F := Ideal) (DotDims.plain n din dout) none agg wrel)
        (broadcastInDim ⟨2, ![n, dout]⟩ ![0, 1] h2 (broadcastInDim ⟨2, ![1, dout]⟩ ![1] h1 b)))
      (Host.dotGeneral (F := Ideal) (DotDims.plain n din dout) none x wroot)
      = Cert.Spec.conv agg x wrel (Cert.Spec.row b) wroot := by
  funext j
  obtain ⟨p, q, rfl⟩ : ∃ (p : Fin n) (q : Fin dout), j = ix2 p q := ⟨j 0, j 1, eq_ix2 j⟩
  rw [addf_apply, addf_apply, StackMember.dotGeneral_plain_apply, StackMember.dotGeneral_plain_apply, rowBcast_apply]
  exact add_right_comm _ _ _

variable (V : Valuation τ sig (Elt Ideal))

theorem conv_ref_64 :
    after rc1 V (𝕣 main_v30) = Cert.Spec.conv (V (𝕣 main_v24)) (V (𝕣 main_v11)) (V (𝕣 main_arg6)) (Cert.Spec.row (V (𝕣 main_arg7))) (V (𝕣 main_arg8)) := by
  after_results
  exact conv_plain (n := 100000) (din := 16) (dout := 64) _ _ _ _ _ _ _
theorem conv_ref_128 :
    after rc5 V (𝕣 main_v105) = Cert.Spec.conv (V (𝕣 main_v99)) (V (𝕣 main_v86)) (V (𝕣 main_arg9)) (Cert.Spec.row (V (𝕣 main_arg10))) (V (𝕣 main_arg11)) := by
  after_results
  exact conv_plain (n := 100000) (din := 64) (dout := 128) _ _ _ _ _ _ _
theorem conv_ref_256 :
    after rc9 V (𝕣 main_v180) = Cert.Spec.conv (V (𝕣 main_v174)) (V (𝕣 main_v161)) (V (𝕣 main_arg12)) (Cert.Spec.row (V (𝕣 main_arg13))) (V (𝕣 main_arg14)) := by
  after_results
  exact conv_plain (n := 100000) (din := 128) (dout := 256) _ _ _ _ _ _ _

end Ref

end Cert.Stages

end
-- ==== Proof.Tail.lean ====
import proofs.«411421_j14293651161727_1_alg».proof.Proof.StageDefs

set_option maxRecDepth 16384

noncomputable section

namespace Cert.Stages.Tail

open Idealize.ShloMosaic Idealize.ShloMosaic.StableHlo

def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

end Cert.Stages.Tail

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

local notation "𝕜" b => (Proc.devRef (τ := Cert.KernelIdeal.τ) (sig := Cert.KernelIdeal.sig) Proc.tc b)
local notation "𝕣" b => (Proc.devRef (τ := Cert.ReferenceIdeal.τ) (sig := Cert.ReferenceIdeal.sig) Proc.tc b)

section Rel
variable (VK : Valuation Cert.KernelIdeal.τ Cert.KernelIdeal.sig (Elt Ideal)) (VR : Valuation Cert.ReferenceIdeal.τ Cert.ReferenceIdeal.sig (Elt Ideal))

local macro "tail_results" : tactic =>
  `(tactic| (simp (disch := decide) only [after_cons, after_nil,
      nullary_result', unary_result', binary_result', ternary_result', reshape_result',
      nullary_result_ne', unary_result_ne', binary_result_ne', ternary_result_ne', reshape_result_ne', Tail.concatenate_pair]))

namespace Tail

theorem cut0 (hx0 : VK (𝕜 Cert.KernelIdeal.main_v122) = VR (𝕣 Cert.ReferenceIdeal.main_v180))
    (hcnt : VK (𝕜 Cert.KernelIdeal.main_v15) = cntR (VR (𝕣 Cert.ReferenceIdeal.main_arg3)))
    (ha3 : VK (𝕜 Cert.KernelIdeal.main_arg3) = VR (𝕣 Cert.ReferenceIdeal.main_arg3))
    (ha4 : VK (𝕜 Cert.KernelIdeal.main_arg4) = VR (𝕣 Cert.ReferenceIdeal.main_arg4))
    (ha21 : VK (𝕜 Cert.KernelIdeal.main_arg21) = VR (𝕣 Cert.ReferenceIdeal.main_arg21))
    (ha22 : VK (𝕜 Cert.KernelIdeal.main_arg22) = VR (𝕣 Cert.ReferenceIdeal.main_arg22))
    (ha23 : VK (𝕜 Cert.KernelIdeal.main_arg23) = VR (𝕣 Cert.ReferenceIdeal.main_arg23))
    (ha24 : VK (𝕜 Cert.KernelIdeal.main_arg24) = VR (𝕣 Cert.ReferenceIdeal.main_arg24)) :
    after Cert.KernelIdeal.Gen.hostOps5 VK (𝕜 Cert.KernelIdeal.main_v138) = after Cert.ReferenceIdeal.Hand.r0 VR (𝕣 Cert.ReferenceIdeal.main_v200) ∧
    after Cert.KernelIdeal.Gen.hostOps5 VK (𝕜 Cert.KernelIdeal.main_v141) = after Cert.ReferenceIdeal.Hand.r0 VR (𝕣 Cert.ReferenceIdeal.main_v203) := by
  refine ⟨?_, ?_⟩ <;> tail_results <;> rw [hx0, hcnt, ha3, ha4, ha21, ha22, ha23, ha24] <;> rfl

theorem cut0c :
    after Cert.KernelIdeal.Gen.hostOps5 VK (𝕜 Cert.KernelIdeal.main_c_27) = after Cert.ReferenceIdeal.Hand.r0 VR (𝕣 Cert.ReferenceIdeal.main_c_45) := by
  tail_results <;> rfl

theorem cut1 (hX1 : VK (𝕜 Cert.KernelIdeal.main_v138) = VR (𝕣 Cert.ReferenceIdeal.main_v200))
    (hC1 : VK (𝕜 Cert.KernelIdeal.main_c_27) = VR (𝕣 Cert.ReferenceIdeal.main_c_45)) :
    after Cert.KernelIdeal.Gen.hostOps5_1 VK (𝕜 Cert.KernelIdeal.main_v142) = after Cert.ReferenceIdeal.Hand.r1 VR (𝕣 Cert.ReferenceIdeal.main_v204) := by
  tail_results <;> rw [hX1, hC1] <;> rfl

theorem keep1 (hX1 : VK (𝕜 Cert.KernelIdeal.main_v138) = VR (𝕣 Cert.ReferenceIdeal.main_v200))
    (hM1 : VK (𝕜 Cert.KernelIdeal.main_v141) = VR (𝕣 Cert.ReferenceIdeal.main_v203)) :
    after Cert.KernelIdeal.Gen.hostOps5_1 VK (𝕜 Cert.KernelIdeal.main_v138) = after Cert.ReferenceIdeal.Hand.r1 VR (𝕣 Cert.ReferenceIdeal.main_v200) ∧
    after Cert.KernelIdeal.Gen.hostOps5_1 VK (𝕜 Cert.KernelIdeal.main_v141) = after Cert.ReferenceIdeal.Hand.r1 VR (𝕣 Cert.ReferenceIdeal.main_v203) := by
  exact ⟨by tail_results; exact hX1, by tail_results; exact hM1⟩

theorem cut2 (hX1 : VK (𝕜 Cert.KernelIdeal.main_v138) = VR (𝕣 Cert.ReferenceIdeal.main_v200))
    (hM1 : VK (𝕜 Cert.KernelIdeal.main_v141) = VR (𝕣 Cert.ReferenceIdeal.main_v203))
    (hV1 : VK (𝕜 Cert.KernelIdeal.main_v142) = VR (𝕣 Cert.ReferenceIdeal.main_v204))
    (ha25 : VK (𝕜 Cert.KernelIdeal.main_arg25) = VR (𝕣 Cert.ReferenceIdeal.main_arg25))
    (ha26 : VK (𝕜 Cert.KernelIdeal.main_arg26) = VR (𝕣 Cert.ReferenceIdeal.main_arg26)) :
    after Cert.KernelIdeal.Gen.hostOps5_2 VK (𝕜 Cert.KernelIdeal.main_v157) = after Cert.ReferenceIdeal.Hand.r2 VR (𝕣 Cert.ReferenceIdeal.main_v219) ∧
    after Cert.KernelIdeal.Gen.hostOps5_2 VK (𝕜 Cert.KernelIdeal.main_v159) = after Cert.ReferenceIdeal.Hand.r2 VR (𝕣 Cert.ReferenceIdeal.main_v221) ∧
    after Cert.KernelIdeal.Gen.hostOps5_2 VK (𝕜 Cert.KernelIdeal.main_v161) = after Cert.ReferenceIdeal.Hand.r2 VR (𝕣 Cert.ReferenceIdeal.main_v223) := by
  refine ⟨?_, ?_, ?_⟩ <;> tail_results <;> rw [hX1, hM1, hV1, ha25, ha26] <;> rfl

theorem cut3 (hQ1 : VK (𝕜 Cert.KernelIdeal.main_v159) = VR (𝕣 Cert.ReferenceIdeal.main_v221))
    (hP1 : VK (𝕜 Cert.KernelIdeal.main_v157) = VR (𝕣 Cert.ReferenceIdeal.main_v219))
    (hN1 : VK (𝕜 Cert.KernelIdeal.main_v161) = VR (𝕣 Cert.ReferenceIdeal.main_v223)) :
    after Cert.KernelIdeal.Gen.hostOps5_3 VK (𝕜 Cert.KernelIdeal.main_v162) = after Cert.ReferenceIdeal.Hand.r3 VR (𝕣 Cert.ReferenceIdeal.main_v224) := by
  tail_results <;> rw [hQ1, hP1, hN1] <;> rfl

theorem cut4 (hA1 : VK (𝕜 Cert.KernelIdeal.main_v162) = VR (𝕣 Cert.ReferenceIdeal.main_v224))
    (ha27 : VK (𝕜 Cert.KernelIdeal.main_arg27) = VR (𝕣 Cert.ReferenceIdeal.main_arg27))
    (ha28 : VK (𝕜 Cert.KernelIdeal.main_arg28) = VR (𝕣 Cert.ReferenceIdeal.main_arg28)) :
    after Cert.KernelIdeal.Gen.hostOps5_4 VK (𝕜 Cert.KernelIdeal.main_v166) = after Cert.ReferenceIdeal.Hand.r4 VR (𝕣 Cert.ReferenceIdeal.main_v228) ∧
    after Cert.KernelIdeal.Gen.hostOps5_4 VK (𝕜 Cert.KernelIdeal.main_v169) = after Cert.ReferenceIdeal.Hand.r4 VR (𝕣 Cert.ReferenceIdeal.main_v231) := by
  refine ⟨?_, ?_⟩ <;> tail_results <;> rw [hA1, ha27, ha28] <;> rfl

theorem cut4c :
    after Cert.KernelIdeal.Gen.hostOps5_4 VK (𝕜 Cert.KernelIdeal.main_c_33) = after Cert.ReferenceIdeal.Hand.r4 VR (𝕣 Cert.ReferenceIdeal.main_c_51) := by
  tail_results <;> rfl

theorem cut5 (hX2 : VK (𝕜 Cert.KernelIdeal.main_v166) = VR (𝕣 Cert.ReferenceIdeal.main_v228))
    (hC2 : VK (𝕜 Cert.KernelIdeal.main_c_33) = VR (𝕣 Cert.ReferenceIdeal.main_c_51)) :
    after Cert.KernelIdeal.Gen.hostOps5_5 VK (𝕜 Cert.KernelIdeal.main_v170) = after Cert.ReferenceIdeal.Hand.r5 VR (𝕣 Cert.ReferenceIdeal.main_v232) := by
  tail_results <;> rw [hX2, hC2] <;> rfl

theorem keep5 (hX2 : VK (𝕜 Cert.KernelIdeal.main_v166) = VR (𝕣 Cert.ReferenceIdeal.main_v228))
    (hM2 : VK (𝕜 Cert.KernelIdeal.main_v169) = VR (𝕣 Cert.ReferenceIdeal.main_v231)) :
    after Cert.KernelIdeal.Gen.hostOps5_5 VK (𝕜 Cert.KernelIdeal.main_v166) = after Cert.ReferenceIdeal.Hand.r5 VR (𝕣 Cert.ReferenceIdeal.main_v228) ∧
    after Cert.KernelIdeal.Gen.hostOps5_5 VK (𝕜 Cert.KernelIdeal.main_v169) = after Cert.ReferenceIdeal.Hand.r5 VR (𝕣 Cert.ReferenceIdeal.main_v231) := by
  exact ⟨by tail_results; exact hX2, by tail_results; exact hM2⟩

theorem cut6 (hX2 : VK (𝕜 Cert.KernelIdeal.main_v166) = VR (𝕣 Cert.ReferenceIdeal.main_v228))
    (hM2 : VK (𝕜 Cert.KernelIdeal.main_v169) = VR (𝕣 Cert.ReferenceIdeal.main_v231))
    (hV2 : VK (𝕜 Cert.KernelIdeal.main_v170) = VR (𝕣 Cert.ReferenceIdeal.main_v232))
    (ha29 : VK (𝕜 Cert.KernelIdeal.main_arg29) = VR (𝕣 Cert.ReferenceIdeal.main_arg29))
    (ha30 : VK (𝕜 Cert.KernelIdeal.main_arg30) = VR (𝕣 Cert.ReferenceIdeal.main_arg30)) :
    after Cert.KernelIdeal.Gen.hostOps5_6 VK (𝕜 Cert.KernelIdeal.main_v185) = after Cert.ReferenceIdeal.Hand.r6 VR (𝕣 Cert.ReferenceIdeal.main_v247) ∧
    after Cert.KernelIdeal.Gen.hostOps5_6 VK (𝕜 Cert.KernelIdeal.main_v187) = after Cert.ReferenceIdeal.Hand.r6 VR (𝕣 Cert.ReferenceIdeal.main_v249) ∧
    after Cert.KernelIdeal.Gen.hostOps5_6 VK (𝕜 Cert.KernelIdeal.main_v189) = after Cert.ReferenceIdeal.Hand.r6 VR (𝕣 Cert.ReferenceIdeal.main_v251) := by
  refine ⟨?_, ?_, ?_⟩ <;> tail_results <;> rw [hX2, hM2, hV2, ha29, ha30] <;> rfl

theorem cut7 (hQ2 : VK (𝕜 Cert.KernelIdeal.main_v187) = VR (𝕣 Cert.ReferenceIdeal.main_v249))
    (hP2 : VK (𝕜 Cert.KernelIdeal.main_v185) = VR (𝕣 Cert.ReferenceIdeal.main_v247))
    (hN2 : VK (𝕜 Cert.KernelIdeal.main_v189) = VR (𝕣 Cert.ReferenceIdeal.main_v251)) :
    after Cert.KernelIdeal.Gen.hostOps5_7 VK (𝕜 Cert.KernelIdeal.main_v190) = after Cert.ReferenceIdeal.Hand.r7 VR (𝕣 Cert.ReferenceIdeal.main_v252) := by
  tail_results <;> rw [hQ2, hP2, hN2] <;> rfl

theorem cut8 (hA2 : VK (𝕜 Cert.KernelIdeal.main_v190) = VR (𝕣 Cert.ReferenceIdeal.main_v252))
    (ha31 : VK (𝕜 Cert.KernelIdeal.main_arg31) = VR (𝕣 Cert.ReferenceIdeal.main_arg31))
    (ha32 : VK (𝕜 Cert.KernelIdeal.main_arg32) = VR (𝕣 Cert.ReferenceIdeal.main_arg32)) :
    after Cert.KernelIdeal.Gen.hostOps5_8 VK (𝕜 Cert.KernelIdeal.main_v194) = after Cert.ReferenceIdeal.Hand.r8 VR (𝕣 Cert.ReferenceIdeal.main_v256) := by
  tail_results <;> rw [hA2, ha31, ha32] <;> rfl

end Tail

set_option maxHeartbeats 4000000 in

theorem tail_rel (hx : VK (𝕜 Cert.KernelIdeal.main_v122) = VR (𝕣 Cert.ReferenceIdeal.main_v180))
    (hc : VK (𝕜 Cert.KernelIdeal.main_v15) = cntR (VR (𝕣 Cert.ReferenceIdeal.main_arg3)))
    (h3 : VK (𝕜 Cert.KernelIdeal.main_arg3) = VR (𝕣 Cert.ReferenceIdeal.main_arg3))
    (h4 : VK (𝕜 Cert.KernelIdeal.main_arg4) = VR (𝕣 Cert.ReferenceIdeal.main_arg4))
    (h21 : VK (𝕜 Cert.KernelIdeal.main_arg21) = VR (𝕣 Cert.ReferenceIdeal.main_arg21))
    (h22 : VK (𝕜 Cert.KernelIdeal.main_arg22) = VR (𝕣 Cert.ReferenceIdeal.main_arg22))
    (h23 : VK (𝕜 Cert.KernelIdeal.main_arg23) = VR (𝕣 Cert.ReferenceIdeal.main_arg23))
    (h24 : VK (𝕜 Cert.KernelIdeal.main_arg24) = VR (𝕣 Cert.ReferenceIdeal.main_arg24))
    (h25 : VK (𝕜 Cert.KernelIdeal.main_arg25) = VR (𝕣 Cert.ReferenceIdeal.main_arg25))
    (h26 : VK (𝕜 Cert.KernelIdeal.main_arg26) = VR (𝕣 Cert.ReferenceIdeal.main_arg26))
    (h27 : VK (𝕜 Cert.KernelIdeal.main_arg27) = VR (𝕣 Cert.ReferenceIdeal.main_arg27))
    (h28 : VK (𝕜 Cert.KernelIdeal.main_arg28) = VR (𝕣 Cert.ReferenceIdeal.main_arg28))
    (h29 : VK (𝕜 Cert.KernelIdeal.main_arg29) = VR (𝕣 Cert.ReferenceIdeal.main_arg29))
    (h30 : VK (𝕜 Cert.KernelIdeal.main_arg30) = VR (𝕣 Cert.ReferenceIdeal.main_arg30))
    (h31 : VK (𝕜 Cert.KernelIdeal.main_arg31) = VR (𝕣 Cert.ReferenceIdeal.main_arg31))
    (h32 : VK (𝕜 Cert.KernelIdeal.main_arg32) = VR (𝕣 Cert.ReferenceIdeal.main_arg32)) :
    after tailK VK (𝕜 Cert.KernelIdeal.main_v194) = after rc10 VR (𝕣 Cert.ReferenceIdeal.main_v256) := by
  obtain ⟨eX1, eM1⟩ := Tail.cut0 VK VR hx hc h3 h4 h21 h22 h23 h24
  have eC1 := Tail.cut0c VK VR
  have eV1 := Tail.cut1 _ _ eX1 eC1
  obtain ⟨eX1', eM1'⟩ := Tail.keep1 _ _ eX1 eM1
  obtain ⟨eP1, eQ1, eN1⟩ := Tail.cut2 _ _ eX1' eM1' eV1 (by tail_results; exact h25) (by tail_results; exact h26)
  have eA1 := Tail.cut3 _ _ eQ1 eP1 eN1
  obtain ⟨eX2, eM2⟩ := Tail.cut4 _ _ eA1 (by tail_results; exact h27) (by tail_results; exact h28)
  have eC2 := Tail.cut4c (after Cert.KernelIdeal.Gen.hostOps5_3 (after Cert.KernelIdeal.Gen.hostOps5_2 (after Cert.KernelIdeal.Gen.hostOps5_1 (after Cert.KernelIdeal.Gen.hostOps5 VK)))) (after Cert.ReferenceIdeal.Hand.r3 (after Cert.ReferenceIdeal.Hand.r2 (after Cert.ReferenceIdeal.Hand.r1 (after Cert.ReferenceIdeal.Hand.r0 VR))))
  have eV2 := Tail.cut5 _ _ eX2 eC2
  obtain ⟨eX2', eM2'⟩ := Tail.keep5 _ _ eX2 eM2
  obtain ⟨eP2, eQ2, eN2⟩ := Tail.cut6 _ _ eX2' eM2' eV2 (by tail_results; exact h29) (by tail_results; exact h30)
  have eA2 := Tail.cut7 _ _ eQ2 eP2 eN2
  have key := Tail.cut8 _ _ eA2 (by tail_results; exact h31) (by tail_results; exact h32)
  simp only [tailK, Cert.ReferenceIdeal.Hand.rc10, StableHlo.after_append]
  exact key

end Rel

end Cert.Stages

end
-- ==== Proof.Chain.lean ====
import proofs.«411421_j14293651161727_1_alg».proof.Proof.Kept
import proofs.«411421_j14293651161727_1_alg».proof.Proof.Stage0
import proofs.«411421_j14293651161727_1_alg».proof.Proof.Stage13
import proofs.«411421_j14293651161727_1_alg».proof.Proof.Stage24
import proofs.«411421_j14293651161727_1_alg».proof.Proof.ConvK
import proofs.«411421_j14293651161727_1_alg».proof.Proof.NormK
import proofs.«411421_j14293651161727_1_alg».proof.Proof.ConvR
import proofs.«411421_j14293651161727_1_alg».proof.Proof.NormR
import proofs.«411421_j14293651161727_1_alg».proof.Proof.Tail

set_option maxRecDepth 16384

noncomputable section

namespace Cert.Stages

open Idealize.ShloMosaic Idealize.ShloMosaic.TcCoe Idealize.SL.Sem Idealize.ShloMosaic.StableHlo Idealize.ShloMosaic.ValueIdx
open Cert.ReferenceIdeal.Hand (rc0 rc1 rc2 rc3 rc4 rc5 rc6 rc7 rc8 rc9 rc10)

local notation "𝕜" b => (Proc.devRef (τ := Cert.KernelIdeal.τ) (sig := Cert.KernelIdeal.sig) Proc.tc b)
local notation "𝕣" b => (Proc.devRef (τ := Cert.ReferenceIdeal.τ) (sig := Cert.ReferenceIdeal.sig) Proc.tc b)

open Cert.KernelIdeal.Gen (W0 W1 W2 W3 W4 W5 W6 W7 W8 W9 W10 W19 V1 V3 V5 V7 V9 W2_arr W4_arr W6_arr W8_arr W10_arr
  hostOps1 hostOps2 hostOps3 hostOps4)

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

abbrev VK0 : Valuation KernelIdeal.τ KernelIdeal.sig (Elt Ideal) := launchContents m c
abbrev VR0 : Valuation ReferenceIdeal.τ ReferenceIdeal.sig (Elt Ideal) := launchContents m' c

-- The two launch memories hold the same arrays at the arguments.
structure Agree0 : Prop where
  a0 : m' ((c.tc : Thread ReferenceIdeal.nD ReferenceIdeal.τ).loc ReferenceIdeal.main_arg0) = m ((c.tc : Thread KernelIdeal.nD KernelIdeal.τ).loc KernelIdeal.main_arg0)
  a1 : m' ((c.tc : Thread ReferenceIdeal.nD ReferenceIdeal.τ).loc ReferenceIdeal.main_arg1) = m ((c.tc : Thread KernelIdeal.nD KernelIdeal.τ).loc KernelIdeal.main_arg1)
  a2 : m' ((c.tc : Thread ReferenceIdeal.nD ReferenceIdeal.τ).loc ReferenceIdeal.main_arg2) = m ((c.tc : Thread KernelIdeal.nD KernelIdeal.τ).loc KernelIdeal.main_arg2)
  a3 : m' ((c.tc : Thread ReferenceIdeal.nD ReferenceIdeal.τ).loc ReferenceIdeal.main_arg3) = m ((c.tc : Thread KernelIdeal.nD KernelIdeal.τ).loc KernelIdeal.main_arg3)
  a4 : m' ((c.tc : Thread ReferenceIdeal.nD ReferenceIdeal.τ).loc ReferenceIdeal.main_arg4) = m ((c.tc : Thread KernelIdeal.nD KernelIdeal.τ).loc KernelIdeal.main_arg4)
  a5 : m' ((c.tc : Thread ReferenceIdeal.nD ReferenceIdeal.τ).loc ReferenceIdeal.main_arg5) = m ((c.tc : Thread KernelIdeal.nD KernelIdeal.τ).loc KernelIdeal.main_arg5)
  a6 : m' ((c.tc : Thread ReferenceIdeal.nD ReferenceIdeal.τ).loc ReferenceIdeal.main_arg6) = m ((c.tc : Thread KernelIdeal.nD KernelIdeal.τ).loc KernelIdeal.main_arg6)

structure Agree1 : Prop where
  a7 : m' ((c.tc : Thread ReferenceIdeal.nD ReferenceIdeal.τ).loc ReferenceIdeal.main_arg7) = m ((c.tc : Thread KernelIdeal.nD KernelIdeal.τ).loc KernelIdeal.main_arg7)
  a8 : m' ((c.tc : Thread ReferenceIdeal.nD ReferenceIdeal.τ).loc ReferenceIdeal.main_arg8) = m ((c.tc : Thread KernelIdeal.nD KernelIdeal.τ).loc KernelIdeal.main_arg8)
  a9 : m' ((c.tc : Thread ReferenceIdeal.nD ReferenceIdeal.τ).loc ReferenceIdeal.main_arg9) = m ((c.tc : Thread KernelIdeal.nD KernelIdeal.τ).loc KernelIdeal.main_arg9)
  a10 : m' ((c.tc : Thread ReferenceIdeal.nD ReferenceIdeal.τ).loc ReferenceIdeal.main_arg10) = m ((c.tc : Thread KernelIdeal.nD KernelIdeal.τ).loc KernelIdeal.main_arg10)
  a11 : m' ((c.tc : Thread ReferenceIdeal.nD ReferenceIdeal.τ).loc ReferenceIdeal.main_arg11) = m ((c.tc : Thread KernelIdeal.nD KernelIdeal.τ).loc KernelIdeal.main_arg11)
  a12 : m' ((c.tc : Thread ReferenceIdeal.nD ReferenceIdeal.τ).loc ReferenceIdeal.main_arg12) = m ((c.tc : Thread KernelIdeal.nD KernelIdeal.τ).loc KernelIdeal.main_arg12)
  a13 : m' ((c.tc : Thread ReferenceIdeal.nD ReferenceIdeal.τ).loc ReferenceIdeal.main_arg13) = m ((c.tc : Thread KernelIdeal.nD KernelIdeal.τ).loc KernelIdeal.main_arg13)

structure Agree2 : Prop where
  a14 : m' ((c.tc : Thread ReferenceIdeal.nD ReferenceIdeal.τ).loc ReferenceIdeal.main_arg14) = m ((c.tc : Thread KernelIdeal.nD KernelIdeal.τ).loc KernelIdeal.main_arg14)
  a15 : m' ((c.tc : Thread ReferenceIdeal.nD ReferenceIdeal.τ).loc ReferenceIdeal.main_arg15) = m ((c.tc : Thread KernelIdeal.nD KernelIdeal.τ).loc KernelIdeal.main_arg15)
  a16 : m' ((c.tc : Thread ReferenceIdeal.nD ReferenceIdeal.τ).loc ReferenceIdeal.main_arg16) = m ((c.tc : Thread KernelIdeal.nD KernelIdeal.τ).loc KernelIdeal.main_arg16)
  a17 : m' ((c.tc : Thread ReferenceIdeal.nD ReferenceIdeal.τ).loc ReferenceIdeal.main_arg17) = m ((c.tc : Thread KernelIdeal.nD KernelIdeal.τ).loc KernelIdeal.main_arg17)
  a18 : m' ((c.tc : Thread ReferenceIdeal.nD ReferenceIdeal.τ).loc ReferenceIdeal.main_arg18) = m ((c.tc : Thread KernelIdeal.nD KernelIdeal.τ).loc KernelIdeal.main_arg18)
  a19 : m' ((c.tc : Thread ReferenceIdeal.nD ReferenceIdeal.τ).loc ReferenceIdeal.main_arg19) = m ((c.tc : Thread KernelIdeal.nD KernelIdeal.τ).loc KernelIdeal.main_arg19)
  a20 : m' ((c.tc : Thread ReferenceIdeal.nD ReferenceIdeal.τ).loc ReferenceIdeal.main_arg20) = m ((c.tc : Thread KernelIdeal.nD KernelIdeal.τ).loc KernelIdeal.main_arg20)

structure Agree3 : Prop where
  a21 : m' ((c.tc : Thread ReferenceIdeal.nD ReferenceIdeal.τ).loc ReferenceIdeal.main_arg21) = m ((c.tc : Thread KernelIdeal.nD KernelIdeal.τ).loc KernelIdeal.main_arg21)
  a22 : m' ((c.tc : Thread ReferenceIdeal.nD ReferenceIdeal.τ).loc ReferenceIdeal.main_arg22) = m ((c.tc : Thread KernelIdeal.nD KernelIdeal.τ).loc KernelIdeal.main_arg22)
  a23 : m' ((c.tc : Thread ReferenceIdeal.nD ReferenceIdeal.τ).loc ReferenceIdeal.main_arg23) = m ((c.tc : Thread KernelIdeal.nD KernelIdeal.τ).loc KernelIdeal.main_arg23)
  a24 : m' ((c.tc : Thread ReferenceIdeal.nD ReferenceIdeal.τ).loc ReferenceIdeal.main_arg24) = m ((c.tc : Thread KernelIdeal.nD KernelIdeal.τ).loc KernelIdeal.main_arg24)
  a25 : m' ((c.tc : Thread ReferenceIdeal.nD ReferenceIdeal.τ).loc ReferenceIdeal.main_arg25) = m ((c.tc : Thread KernelIdeal.nD KernelIdeal.τ).loc KernelIdeal.main_arg25)
  a26 : m' ((c.tc : Thread ReferenceIdeal.nD ReferenceIdeal.τ).loc ReferenceIdeal.main_arg26) = m ((c.tc : Thread KernelIdeal.nD KernelIdeal.τ).loc KernelIdeal.main_arg26)

structure Agree4 : Prop where
  a27 : m' ((c.tc : Thread ReferenceIdeal.nD ReferenceIdeal.τ).loc ReferenceIdeal.main_arg27) = m ((c.tc : Thread KernelIdeal.nD KernelIdeal.τ).loc KernelIdeal.main_arg27)
  a28 : m' ((c.tc : Thread ReferenceIdeal.nD ReferenceIdeal.τ).loc ReferenceIdeal.main_arg28) = m ((c.tc : Thread KernelIdeal.nD KernelIdeal.τ).loc KernelIdeal.main_arg28)
  a29 : m' ((c.tc : Thread ReferenceIdeal.nD ReferenceIdeal.τ).loc ReferenceIdeal.main_arg29) = m ((c.tc : Thread KernelIdeal.nD KernelIdeal.τ).loc KernelIdeal.main_arg29)
  a30 : m' ((c.tc : Thread ReferenceIdeal.nD ReferenceIdeal.τ).loc ReferenceIdeal.main_arg30) = m ((c.tc : Thread KernelIdeal.nD KernelIdeal.τ).loc KernelIdeal.main_arg30)
  a31 : m' ((c.tc : Thread ReferenceIdeal.nD ReferenceIdeal.τ).loc ReferenceIdeal.main_arg31) = m ((c.tc : Thread KernelIdeal.nD KernelIdeal.τ).loc KernelIdeal.main_arg31)
  a32 : m' ((c.tc : Thread ReferenceIdeal.nD ReferenceIdeal.τ).loc ReferenceIdeal.main_arg32) = m ((c.tc : Thread KernelIdeal.nD KernelIdeal.τ).loc KernelIdeal.main_arg32)

structure Agree : Prop where
  p0 : Agree0 m m' c
  p1 : Agree1 m m' c
  p2 : Agree2 m m' c
  p3 : Agree3 m m' c
  p4 : Agree4 m m' c

variable (ag : Agree m m' c)
include ag

-- After the first stretch: sources, destinations, edge weights, node features and the first aggregation agree.
def S1 :=
  stage0 (W0 (F := Ideal) m ρ c) (VR0 m' c) ag.p0.a0.symm ag.p0.a1.symm ag.p0.a2.symm ag.p0.a3.symm ag.p0.a5.symm
-- The kernel program's node count is the reference's count of the same graph ids.
theorem cnt1 :
    W1 (F := Ideal) m ρ c (𝕜 KernelIdeal.main_v15) = cntR (VR0 m' c (𝕣 ReferenceIdeal.main_arg3)) := (S1 m ρ m' c ag).2.2.2.2.2.2
-- The first convolution: the same two products and bias, added in another order.
theorem S2 :
    W2 (F := Ideal) m ρ c (𝕜 KernelIdeal.main_v30) = Rv2 (VR0 m' c) (𝕣 ReferenceIdeal.main_v30) := by
  have s1 := S1 m ρ m' c ag
  have hK : W2 (F := Ideal) m ρ c (𝕜 KernelIdeal.main_v30) = _ :=
    (W2_arr m ρ c 5).trans (KernelIdeal.Hand.conv0_value (V1 (F := Ideal) m ρ) c)
  have hR : Rv2 (VR0 m' c) (𝕣 ReferenceIdeal.main_v30) = _ := conv_ref_64 (Rv1 (VR0 m' c))
  have e1 : V1 (F := Ideal) m ρ c KernelIdeal.main_v28 = Rv1 (VR0 m' c) (𝕣 ReferenceIdeal.main_v24) := s1.2.2.2.2.1
  have e2 : V1 (F := Ideal) m ρ c KernelIdeal.main_v11 = Rv1 (VR0 m' c) (𝕣 ReferenceIdeal.main_v11) := s1.2.2.2.1
  have e3 : V1 (F := Ideal) m ρ c KernelIdeal.main_arg6 = Rv1 (VR0 m' c) (𝕣 ReferenceIdeal.main_arg6) := (KU1 m ρ c ku6).trans (ag.p0.a6.symm.trans (RU1 (VR0 m' c)).symm)
  have e4 : V1 (F := Ideal) m ρ c KernelIdeal.main_v29 = Spec.row (Rv1 (VR0 m' c) (𝕣 ReferenceIdeal.main_arg7)) :=
    s1.2.2.2.2.2.1.trans (congrArg Spec.row (ag.p1.a7.symm.trans (RU1 (VR0 m' c)).symm))
  have e5 : V1 (F := Ideal) m ρ c KernelIdeal.main_arg8 = Rv1 (VR0 m' c) (𝕣 ReferenceIdeal.main_arg8) := (KU1 m ρ c ku8).trans (ag.p1.a8.symm.trans (RU1 (VR0 m' c)).symm)
  rw [hK, hR, e1, e2, e3, e4, e5]
-- The per-graph mean and variance agree.
def S3 :=
  stage1 (W2 (F := Ideal) m ρ c) (Rv2 (VR0 m' c)) (S2 m ρ m' c ag) ((KU2 m ρ c ku3).trans (ag.p0.a3.symm.trans (RU2 (VR0 m' c)).symm)) ((KU2 m ρ c ku17).trans (ag.p2.a17.symm.trans (RU2 (VR0 m' c)).symm))
    ((KK2 m ρ c kk_v15).trans ((cnt1 m ρ m' c ag).trans (congrArg cntR (RU2 (VR0 m' c)).symm)))
variable (rowOf : Fin 100000 → Fin 100)
  (hrow : ∀ e : Fin 100000, ((m ((c.tc : Thread KernelIdeal.nD KernelIdeal.τ).loc KernelIdeal.main_arg3) : IVec KernelIdeal.S100000 32) (ix1 e)).toInt = ((rowOf e).val : ℤ))
include hrow

-- The reference reads the same graph ids wherever its fourth argument is still as launched.
theorem hrowR
    (V : Valuation ReferenceIdeal.τ ReferenceIdeal.sig (Elt Ideal)) (hV : V (𝕣 ReferenceIdeal.main_arg3) = VR0 m' c (𝕣 ReferenceIdeal.main_arg3)) (e : Fin 100000) :
    ((V (𝕣 ReferenceIdeal.main_arg3) : IVec ReferenceIdeal.S100000 32) (ix1 e)).toInt = ((rowOf e).val : ℤ) := by
  rw [hV]; exact (congrArg BitVec.toInt (congrFun ag.p0.a3 (ix1 e))).trans (hrow e)
-- The first normalisation agrees wherever every graph id is a graph.
theorem S4 :
    W4 (F := Ideal) m ρ c (𝕜 KernelIdeal.main_v61) = Rv4 (VR0 m' c) (𝕣 ReferenceIdeal.main_v86) := by
  have s3 := S3 m ρ m' c ag
  have hcol : ∀ e : Fin 100000, ((V3 (F := Ideal) m ρ c KernelIdeal.main_v57 : IVec KernelIdeal.S100000x1 32) (ix2 e 0)).toInt = ((rowOf e).val : ℤ) := fun e => by
    have h := s3.2.2.1 e
    have h' : (W2 (F := Ideal) m ρ c (𝕜 KernelIdeal.main_arg3) : IVec KernelIdeal.S100000 32) (ix1 e) = (m ((c.tc : Thread KernelIdeal.nD KernelIdeal.τ).loc KernelIdeal.main_arg3) : IVec KernelIdeal.S100000 32) (ix1 e) :=
      congrFun (KU2 m ρ c ku3) (ix1 e)
    exact (congrArg BitVec.toInt (h.trans h')).trans (hrow e)
  have hK : W4 (F := Ideal) m ρ c (𝕜 KernelIdeal.main_v61) = _ :=
    (W4_arr m ρ c 7).trans (KernelIdeal.Hand.norm1_value (V3 (F := Ideal) m ρ) c rowOf hcol)
  have hR : Rv4 (VR0 m' c) (𝕣 ReferenceIdeal.main_v86) = _ := norm_ref_64 (Rv2 (VR0 m' c)) rowOf (hrowR m m' c ag rowOf hrow _ (RU2 (VR0 m' c)))
  have e1 : V3 (F := Ideal) m ρ c KernelIdeal.main_v30 = Rv2 (VR0 m' c) (𝕣 ReferenceIdeal.main_v30) :=
    (after_of_forall_not_mem _ _ (by not_written hostOps1)).trans (S2 m ρ m' c ag)
  have e2 : V3 (F := Ideal) m ρ c KernelIdeal.main_v37 = Rv3 (VR0 m' c) (𝕣 ReferenceIdeal.main_v41) := s3.1
  have e3 : V3 (F := Ideal) m ρ c KernelIdeal.main_v56 = Rv3 (VR0 m' c) (𝕣 ReferenceIdeal.main_v64) := s3.2.1
  have e4 : V3 (F := Ideal) m ρ c KernelIdeal.main_v58 = Spec.row (Rv2 (VR0 m' c) (𝕣 ReferenceIdeal.main_arg15)) :=
    s3.2.2.2.1.trans (congrArg Spec.row ((KU2 m ρ c ku15).trans (ag.p2.a15.symm.trans (RU2 (VR0 m' c)).symm)))
  have e5 : V3 (F := Ideal) m ρ c KernelIdeal.main_v59 = Spec.row (Rv2 (VR0 m' c) (𝕣 ReferenceIdeal.main_arg16)) :=
    s3.2.2.2.2.1.trans (congrArg Spec.row ((KU2 m ρ c ku16).trans (ag.p2.a16.symm.trans (RU2 (VR0 m' c)).symm)))
  have e6 : V3 (F := Ideal) m ρ c KernelIdeal.main_v60 = Spec.row (Rv2 (VR0 m' c) (𝕣 ReferenceIdeal.main_arg17)) :=
    s3.2.2.2.2.2.trans (congrArg Spec.row ((KU2 m ρ c ku17).trans (ag.p2.a17.symm.trans (RU2 (VR0 m' c)).symm)))
  rw [hK, hR, e1, e2, e3, e4, e5, e6]
def S5 :=
  stage2 (W4 (F := Ideal) m ρ c) (Rv4 (VR0 m' c)) (S4 m ρ m' c ag rowOf hrow)
    ((KK4 m ρ c kk_v1).trans ((S1 m ρ m' c ag).1.trans (RK4 (VR0 m' c) rk_v1).symm))
    ((KK4 m ρ c kk_v3).trans ((S1 m ρ m' c ag).2.1.trans (RK4 (VR0 m' c) rk_v3).symm))
    ((KK4 m ρ c kk_v4).trans ((S1 m ρ m' c ag).2.2.1.trans (RK4 (VR0 m' c) rk_v4).symm))
theorem S6 :
    W6 (F := Ideal) m ρ c (𝕜 KernelIdeal.main_v76) = Rv6 (VR0 m' c) (𝕣 ReferenceIdeal.main_v105) := by
  have s5 := S5 m ρ m' c ag rowOf hrow
  have hK : W6 (F := Ideal) m ρ c (𝕜 KernelIdeal.main_v76) = _ :=
    (W6_arr m ρ c 5).trans (KernelIdeal.Hand.conv2_value (V5 (F := Ideal) m ρ) c)
  have hR : Rv6 (VR0 m' c) (𝕣 ReferenceIdeal.main_v105) = _ := conv_ref_128 (Rv5 (VR0 m' c))
  have e1 : V5 (F := Ideal) m ρ c KernelIdeal.main_v74 = Rv5 (VR0 m' c) (𝕣 ReferenceIdeal.main_v99) := s5.1
  have e2 : V5 (F := Ideal) m ρ c KernelIdeal.main_v61 = Rv5 (VR0 m' c) (𝕣 ReferenceIdeal.main_v86) :=
    (after_of_forall_not_mem _ _ (by not_written hostOps2)).trans ((S4 m ρ m' c ag rowOf hrow).trans
      (after_of_forall_not_mem _ _ (by not_written rc4)).symm)
  have e3 : V5 (F := Ideal) m ρ c KernelIdeal.main_arg9 = Rv5 (VR0 m' c) (𝕣 ReferenceIdeal.main_arg9) := (KU5 m ρ c ku9).trans (ag.p1.a9.symm.trans (RU5 (VR0 m' c)).symm)
  have e4 : V5 (F := Ideal) m ρ c KernelIdeal.main_v75 = Spec.row (Rv5 (VR0 m' c) (𝕣 ReferenceIdeal.main_arg10)) :=
    s5.2.trans (congrArg Spec.row ((KU4 m ρ c ku10).trans (ag.p1.a10.symm.trans (RU5 (VR0 m' c)).symm)))
  have e5 : V5 (F := Ideal) m ρ c KernelIdeal.main_arg11 = Rv5 (VR0 m' c) (𝕣 ReferenceIdeal.main_arg11) := (KU5 m ρ c ku11).trans (ag.p1.a11.symm.trans (RU5 (VR0 m' c)).symm)
  rw [hK, hR, e1, e2, e3, e4, e5]
def S7 :=
  stage3 (W6 (F := Ideal) m ρ c) (Rv6 (VR0 m' c)) (S6 m ρ m' c ag rowOf hrow) ((KU6 m ρ c ku3).trans (ag.p0.a3.symm.trans (RU6 (VR0 m' c)).symm)) ((KU6 m ρ c ku20).trans (ag.p2.a20.symm.trans (RU6 (VR0 m' c)).symm))
    ((KK6 m ρ c kk_v15).trans ((cnt1 m ρ m' c ag).trans (congrArg cntR (RU6 (VR0 m' c)).symm)))
theorem S8 :
    W8 (F := Ideal) m ρ c (𝕜 KernelIdeal.main_v107) = Rv8 (VR0 m' c) (𝕣 ReferenceIdeal.main_v161) := by
  have s7 := S7 m ρ m' c ag rowOf hrow
  have hcol : ∀ e : Fin 100000, ((V7 (F := Ideal) m ρ c KernelIdeal.main_v103 : IVec KernelIdeal.S100000x1 32) (ix2 e 0)).toInt = ((rowOf e).val : ℤ) := fun e => by
    have h := s7.2.2.1 e
    have h' : (W6 (F := Ideal) m ρ c (𝕜 KernelIdeal.main_arg3) : IVec KernelIdeal.S100000 32) (ix1 e) = (m ((c.tc : Thread KernelIdeal.nD KernelIdeal.τ).loc KernelIdeal.main_arg3) : IVec KernelIdeal.S100000 32) (ix1 e) :=
      congrFun (KU6 m ρ c ku3) (ix1 e)
    exact (congrArg BitVec.toInt (h.trans h')).trans (hrow e)
  have hK : W8 (F := Ideal) m ρ c (𝕜 KernelIdeal.main_v107) = _ :=
    (W8_arr m ρ c 7).trans (KernelIdeal.Hand.norm3_value (V7 (F := Ideal) m ρ) c rowOf hcol)
  have hR : Rv8 (VR0 m' c) (𝕣 ReferenceIdeal.main_v161) = _ := norm_ref_128 (Rv6 (VR0 m' c)) rowOf (hrowR m m' c ag rowOf hrow _ (RU6 (VR0 m' c)))
  have e1 : V7 (F := Ideal) m ρ c KernelIdeal.main_v76 = Rv6 (VR0 m' c) (𝕣 ReferenceIdeal.main_v105) :=
    (after_of_forall_not_mem _ _ (by not_written hostOps3)).trans (S6 m ρ m' c ag rowOf hrow)
  have e2 : V7 (F := Ideal) m ρ c KernelIdeal.main_v83 = Rv7 (VR0 m' c) (𝕣 ReferenceIdeal.main_v116) := s7.1
  have e3 : V7 (F := Ideal) m ρ c KernelIdeal.main_v102 = Rv7 (VR0 m' c) (𝕣 ReferenceIdeal.main_v139) := s7.2.1
  have e4 : V7 (F := Ideal) m ρ c KernelIdeal.main_v104 = Spec.row (Rv6 (VR0 m' c) (𝕣 ReferenceIdeal.main_arg18)) :=
    s7.2.2.2.1.trans (congrArg Spec.row ((KU6 m ρ c ku18).trans (ag.p2.a18.symm.trans (RU6 (VR0 m' c)).symm)))
  have e5 : V7 (F := Ideal) m ρ c KernelIdeal.main_v105 = Spec.row (Rv6 (VR0 m' c) (𝕣 ReferenceIdeal.main_arg19)) :=
    s7.2.2.2.2.1.trans (congrArg Spec.row ((KU6 m ρ c ku19).trans (ag.p2.a19.symm.trans (RU6 (VR0 m' c)).symm)))
  have e6 : V7 (F := Ideal) m ρ c KernelIdeal.main_v106 = Spec.row (Rv6 (VR0 m' c) (𝕣 ReferenceIdeal.main_arg20)) :=
    s7.2.2.2.2.2.trans (congrArg Spec.row ((KU6 m ρ c ku20).trans (ag.p2.a20.symm.trans (RU6 (VR0 m' c)).symm)))
  rw [hK, hR, e1, e2, e3, e4, e5, e6]
def S9 :=
  stage4 (W8 (F := Ideal) m ρ c) (Rv8 (VR0 m' c)) (S8 m ρ m' c ag rowOf hrow)
    ((KK8 m ρ c kk_v1).trans ((S1 m ρ m' c ag).1.trans (RK8 (VR0 m' c) rk_v1).symm))
    ((KK8 m ρ c kk_v3).trans ((S1 m ρ m' c ag).2.1.trans (RK8 (VR0 m' c) rk_v3).symm))
    ((KK8 m ρ c kk_v4).trans ((S1 m ρ m' c ag).2.2.1.trans (RK8 (VR0 m' c) rk_v4).symm))
theorem S10 :
    W10 (F := Ideal) m ρ c (𝕜 KernelIdeal.main_v122) = Rv10 (VR0 m' c) (𝕣 ReferenceIdeal.main_v180) := by
  have s9 := S9 m ρ m' c ag rowOf hrow
  have hK : W10 (F := Ideal) m ρ c (𝕜 KernelIdeal.main_v122) = _ :=
    (W10_arr m ρ c 5).trans (KernelIdeal.Hand.conv4_value (V9 (F := Ideal) m ρ) c)
  have hR : Rv10 (VR0 m' c) (𝕣 ReferenceIdeal.main_v180) = _ := conv_ref_256 (Rv9 (VR0 m' c))
  have e1 : V9 (F := Ideal) m ρ c KernelIdeal.main_v120 = Rv9 (VR0 m' c) (𝕣 ReferenceIdeal.main_v174) := s9.1
  have e2 : V9 (F := Ideal) m ρ c KernelIdeal.main_v107 = Rv9 (VR0 m' c) (𝕣 ReferenceIdeal.main_v161) :=
    (after_of_forall_not_mem _ _ (by not_written hostOps4)).trans ((S8 m ρ m' c ag rowOf hrow).trans
      (after_of_forall_not_mem _ _ (by not_written rc8)).symm)
  have e3 : V9 (F := Ideal) m ρ c KernelIdeal.main_arg12 = Rv9 (VR0 m' c) (𝕣 ReferenceIdeal.main_arg12) := (KU9 m ρ c ku12).trans (ag.p1.a12.symm.trans (RU9 (VR0 m' c)).symm)
  have e4 : V9 (F := Ideal) m ρ c KernelIdeal.main_v121 = Spec.row (Rv9 (VR0 m' c) (𝕣 ReferenceIdeal.main_arg13)) :=
    s9.2.trans (congrArg Spec.row ((KU8 m ρ c ku13).trans (ag.p1.a13.symm.trans (RU9 (VR0 m' c)).symm)))
  have e5 : V9 (F := Ideal) m ρ c KernelIdeal.main_arg14 = Rv9 (VR0 m' c) (𝕣 ReferenceIdeal.main_arg14) := (KU9 m ρ c ku14).trans (ag.p2.a14.symm.trans (RU9 (VR0 m' c)).symm)
  rw [hK, hR, e1, e2, e3, e4, e5]
-- The last boundary holds, at the result buffer, what the reference's whole operation list leaves at its own.
theorem result_eq :
    W19 (F := Ideal) m ρ c (𝕜 KernelIdeal.main_v194)
      = after ReferenceIdeal.Hand.ops (VR0 m' c) (𝕣 ReferenceIdeal.main_v256) := by
  have hT := tail_rel (W10 (F := Ideal) m ρ c) (Rv10 (VR0 m' c)) (S10 m ρ m' c ag rowOf hrow)
    ((KK10 m ρ c kk_v15).trans ((cnt1 m ρ m' c ag).trans (congrArg cntR (RU10 (VR0 m' c)).symm)))
    ((KU10 m ρ c ku3).trans (ag.p0.a3.symm.trans (RU10 (VR0 m' c)).symm))
    ((KU10 m ρ c ku4).trans (ag.p0.a4.symm.trans (RU10 (VR0 m' c)).symm))
    ((KU10 m ρ c ku21).trans (ag.p3.a21.symm.trans (RU10 (VR0 m' c)).symm))
    ((KU10 m ρ c ku22).trans (ag.p3.a22.symm.trans (RU10 (VR0 m' c)).symm))
    ((KU10 m ρ c ku23).trans (ag.p3.a23.symm.trans (RU10 (VR0 m' c)).symm))
    ((KU10 m ρ c ku24).trans (ag.p3.a24.symm.trans (RU10 (VR0 m' c)).symm))
    ((KU10 m ρ c ku25).trans (ag.p3.a25.symm.trans (RU10 (VR0 m' c)).symm))
    ((KU10 m ρ c ku26).trans (ag.p3.a26.symm.trans (RU10 (VR0 m' c)).symm))
    ((KU10 m ρ c ku27).trans (ag.p4.a27.symm.trans (RU10 (VR0 m' c)).symm))
    ((KU10 m ρ c ku28).trans (ag.p4.a28.symm.trans (RU10 (VR0 m' c)).symm))
    ((KU10 m ρ c ku29).trans (ag.p4.a29.symm.trans (RU10 (VR0 m' c)).symm))
    ((KU10 m ρ c ku30).trans (ag.p4.a30.symm.trans (RU10 (VR0 m' c)).symm))
    ((KU10 m ρ c ku31).trans (ag.p4.a31.symm.trans (RU10 (VR0 m' c)).symm))
    ((KU10 m ρ c ku32).trans (ag.p4.a32.symm.trans (RU10 (VR0 m' c)).symm))
  have hKf : W19 (F := Ideal) m ρ c = after tailK (W10 (F := Ideal) m ρ c) := by
    simp only [tailK, StableHlo.after_append]
  rw [hKf, ReferenceIdeal.Hand.after_ops]
  exact hT

end Cert.Stages

end
-- ==== Proof.PreRange.lean ====
import proofs.«411421_j14293651161727_1_alg».proof.Defs
import proofs.«411421_j14293651161727_1_alg».proof.Proof.Gen.Pre_finite_inputs
import proofs.«411421_j14293651161727_1_alg».proof.Proof.Gen.KernelIdeal
import Idealize.ShloMosaic.Lib.ValueIdx
import Idealize.ShloMosaic.Lib.ReduceAll
import Idealize.ShloMosaic.Lib.StableHlo.Predicate

set_option maxRecDepth 16384

noncomputable section

namespace Cert.Stages

open Idealize.ShloMosaic Idealize.ShloMosaic.TcCoe Idealize.SL.Sem Idealize.ShloMosaic.ValueIdx

section Decode

open Cert.Pre_finite_inputs

variable [Cert.Pre_finite_inputs.Facts] {F : FTy → Type} [FloatOps F]

private def InRange (ids : IVec Cert.Pre_finite_inputs.S100000 32) : Prop :=
  ∀ e : Fin 100000, 0 ≤ (ids (ix1 e)).toInt ∧ (ids (ix1 e)).toInt < 100

private theorem bcast_ids (h : S_.BroadcastsInDim S100000 (![] : Fin 0 → Fin S100000.rank)) (v : IVec S_ 32) (e : Fin 100000) :
    broadcastInDim S100000 ![] h v (ix1 e) = v ix0 := by
  simp only [broadcastInDim]
  congr 1
  funext a
  exact a.elim0

private theorem all_ids (x : IVec S100000 1) (init : IVec S_ 1) (h : S100000.ReducesTo [0] S_) (hu : 0 < S_.numel)
    (e1 : Host.reduce IntOp.andi x init h hu ix0 = 1#1) (e : Fin 100000) : x (ix1 e) = 1#1 := by
  haveI : Subsingleton S_.Idx := ⟨fun a b => funext fun d => d.elim0⟩
  exact Host.reduce_andi_all x init h hu ix0 e1 (ix1 e)

private theorem part9_dec (ids : IVec S100000 32) (acc : IVec S_ 1) (c : IVec S_ 32)
    (h : fn_part9 (F := F) ids acc c ix0 = 1#1) :
    acc ix0 = 1#1 ∧ ∀ e : Fin 100000, (ids (ix1 e)).toInt < (c ix0).toInt := by
  unfold fn_part9 at h
  obtain ⟨h1, h2⟩ := IntOp.andi_eq_one.1 h
  refine ⟨h1, fun e => ?_⟩
  have h3 := all_ids _ _ _ _ h2 e
  have h4 := IntOp.cmpi_slt.1 h3
  rwa [bcast_ids] at h4

private theorem part8_dec (ids : IVec S100000 32) (a31 : FVec F S64x3 .f32) (a32 : FVec F S3 .f32) (acc : IVec S_ 1) (fin : IVec S64 1)
    (h : fn_part8 (F := F) ids a31 a32 acc fin ix0 = 1#1) : InRange ids := by
  unfold fn_part8 at h
  obtain ⟨h1, h2⟩ := part9_dec _ _ _ h
  obtain ⟨_, h3⟩ := IntOp.andi_eq_one.1 h1
  intro e
  have h4 := IntOp.cmpi_sge.1 (all_ids _ _ _ _ h3 e)
  rw [bcast_ids] at h4
  exact ⟨h4, h2 e⟩

end Decode

theorem batch_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 100000) :
    0 ≤ ((m ((c.tc : Thread Cert.KernelIdeal.nD Cert.KernelIdeal.τ).loc Cert.KernelIdeal.main_arg3) : IVec Cert.KernelIdeal.S100000 32) (ix1 e)).toInt
    ∧ ((m ((c.tc : Thread Cert.KernelIdeal.nD Cert.KernelIdeal.τ).loc Cert.KernelIdeal.main_arg3) : IVec Cert.KernelIdeal.S100000 32) (ix1 e)).toInt < 100 := by
  have h := congrFun (hpre c) ix0
  exact part8_dec _ _ _ _ _ h e

end Cert.Stages

end
-- ==== Proof.lean ====
import proofs.«411421_j14293651161727_1_alg».proof.Defs
import proofs.«411421_j14293651161727_1_alg».proof.Proof.Gen.Kernel
import proofs.«411421_j14293651161727_1_alg».proof.Proof.Gen.Kernel.Frame
import proofs.«411421_j14293651161727_1_alg».proof.Proof.Gen.KernelIdeal
import proofs.«411421_j14293651161727_1_alg».proof.Proof.Gen.KernelIdeal.Frame
import proofs.«411421_j14293651161727_1_alg».proof.Proof.Gen.ReferenceIdeal
import proofs.«411421_j14293651161727_1_alg».proof.Proof.Gen.Pre_finite_inputs
import proofs.«411421_j14293651161727_1_alg».proof.Proof.KRun
import proofs.«411421_j14293651161727_1_alg».proof.Proof.RefOps
import proofs.«411421_j14293651161727_1_alg».proof.Proof.Chain
import proofs.«411421_j14293651161727_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Idealize.ShloMosaic.ValueIdx
open Cert.Stages

theorem frame_k : Cert.frame_Kernel := fun m ρ _ => Kernel.Gen.frame m ρ
theorem frame_ki : Cert.frame_KernelIdeal := fun m ρ _ => KernelIdeal.Gen.frame m ρ

-- No operation of the reference writes an argument.
theorem frame_ri : Cert.frame_ReferenceIdeal := fun m ρ _ =>
  (θ_run ReferenceIdeal.defs _ _).mono (fun r h c => by
    repeat' apply And.intro
    all_goals exact (h c _).trans (RU11 _))
    (ReferenceIdeal.Hand.run_all (F := Ideal) m ρ)

section
open Cert.KernelIdeal Cert.KernelIdeal.Gen
variable (m : (ℓ : Loc nD τ sig) → Buf (Elt Ideal) ℓ) (hpre : Cert.Pre_KernelIdeal m) (c : Dev nD) (e : Fin 100000)

-- Under the precondition every graph id is an index into the hundred graphs.
def rowOf : Fin 100 :=
  ⟨((m ((c.tc : Thread nD τ).loc main_arg3) : IVec S100000 32) (ix1 e)).toInt.toNat, by
    have h := batch_range m hpre c e; omega⟩

theorem rowOf_spec :
    ((m ((c.tc : Thread nD τ).loc main_arg3) : IVec S100000 32) (ix1 e)).toInt = ((rowOf m hpre c e).val : ℤ) := by
  have h := batch_range m hpre c e
  show _ = ((Int.toNat _ : ℕ) : ℤ)
  omega

theorem algebraic : Cert.algebraic_KernelIdeal_ReferenceIdeal := by
  intro m g m' g' hpre hagree
  refine ⟨fun c => W19 (F := Ideal) m g c (Proc.devRef .tc main_v194), ?_, ?_⟩
  · exact (θ_run KernelIdeal.defs _ _).mono (fun r h c =>
      ⟨h c _ (mem_uc main_v194 (by decide)),
       (h c _ (mem_uc main_arg0 (by decide))).trans (W19_main_arg0 m g c),
       (h c _ (mem_uc main_arg1 (by decide))).trans (W19_main_arg1 m g c),
       (h c _ (mem_uc main_arg2 (by decide))).trans (W19_main_arg2 m g c),
       (h c _ (mem_uc main_arg3 (by decide))).trans (W19_main_arg3 m g c),
       (h c _ (mem_uc main_arg4 (by decide))).trans (W19_main_arg4 m g c),
       (h c _ (mem_uc main_arg5 (by decide))).trans (W19_main_arg5 m g c),
       (h c _ (mem_uc main_arg6 (by decide))).trans (W19_main_arg6 m g c),
       (h c _ (mem_uc main_arg7 (by decide))).trans (W19_main_arg7 m g c),
       (h c _ (mem_uc main_arg8 (by decide))).trans (W19_main_arg8 m g c),
       (h c _ (mem_uc main_arg9 (by decide))).trans (W19_main_arg9 m g c),
       (h c _ (mem_uc main_arg10 (by decide))).trans (W19_main_arg10 m g c),
       (h c _ (mem_uc main_arg11 (by decide))).trans (W19_main_arg11 m g c),
       (h c _ (mem_uc main_arg12 (by decide))).trans (W19_main_arg12 m g c),
       (h c _ (mem_uc main_arg13 (by decide))).trans (W19_main_arg13 m g c),
       (h c _ (mem_uc main_arg14 (by decide))).trans (W19_main_arg14 m g c),
       (h c _ (mem_uc main_arg15 (by decide))).trans (W19_main_arg15 m g c),
       (h c _ (mem_uc main_arg16 (by decide))).trans (W19_main_arg16 m g c),
       (h c _ (mem_uc main_arg17 (by decide))).trans (W19_main_arg17 m g c),
       (h c _ (mem_uc main_arg18 (by decide))).trans (W19_main_arg18 m g c),
       (h c _ (mem_uc main_arg19 (by decide))).trans (W19_main_arg19 m g c),
       (h c _ (mem_uc main_arg20 (by decide))).trans (W19_main_arg20 m g c),
       (h c _ (mem_uc main_arg21 (by decide))).trans (W19_main_arg21 m g c),
       (h c _ (mem_uc main_arg22 (by decide))).trans (W19_main_arg22 m g c),
       (h c _ (mem_uc main_arg23 (by decide))).trans (W19_main_arg23 m g c),
       (h c _ (mem_uc main_arg24 (by decide))).trans (W19_main_arg24 m g c),
       (h c _ (mem_uc main_arg25 (by decide))).trans (W19_main_arg25 m g c),
       (h c _ (mem_uc main_arg26 (by decide))).trans (W19_main_arg26 m g c),
       (h c _ (mem_uc main_arg27 (by decide))).trans (W19_main_arg27 m g c),
       (h c _ (mem_uc main_arg28 (by decide))).trans (W19_main_arg28 m g c),
       (h c _ (mem_uc main_arg29 (by decide))).trans (W19_main_arg29 m g c),
       (h c _ (mem_uc main_arg30 (by decide))).trans (W19_main_arg30 m g c),
       (h c _ (mem_uc main_arg31 (by decide))).trans (W19_main_arg31 m g c),
       (h c _ (mem_uc main_arg32 (by decide))).trans (W19_main_arg32 m g c)⟩)
      (KernelIdeal.Hand.run_all (F := Ideal) m g)
  · exact (θ_run ReferenceIdeal.defs _ _).mono (fun r h c => by
      obtain ⟨a0, a1, a2, a3, a4, a5, a6, a7, a8, a9, a10, a11, a12, a13, a14, a15, a16, a17, a18, a19, a20, a21, a22, a23, a24, a25, a26, a27, a28, a29, a30, a31, a32⟩ := hagree c
      refine ⟨(h c ReferenceIdeal.main_v256).trans (result_eq m g m' c ⟨⟨a0, a1, a2, a3, a4, a5, a6⟩, ⟨a7, a8, a9, a10, a11, a12, a13⟩, ⟨a14, a15, a16, a17, a18, a19, a20⟩, ⟨a21, a22, a23, a24, a25, a26⟩, ⟨a27, a28, a29, a30, a31, a32⟩⟩ (rowOf m hpre c) (rowOf_spec m hpre c)).symm, ?_⟩
      repeat' apply And.intro
      all_goals exact (h c _).trans (RU11 _))
      (ReferenceIdeal.Hand.run_all (F := Ideal) m' g')
end

theorem claim : Cert.Claim := ⟨Kernel.Gen.facts, KernelIdeal.Gen.facts, ReferenceIdeal.Gen.facts, Pre_finite_inputs.Gen.facts,
  frame_k, frame_ki, frame_ri, trivial, algebraic⟩

end Cert.Proof

end
